-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part2 {F : FTy → Type} [FloatOps F] (main_arg7 : FVec F S4096x4096 .f32) (main_arg8 : FVec F S16x4096 .f32) (main_arg9 : FVec F S4096x16 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S16x4096 .f32 := Host.absf main_arg8
  let main_cst_14 : FVec F S_ .f32 := constant S_ .f32 0x7F800000#32
  let main_v40 : FVec F S16x4096 .f32 := broadcastInDim S16x4096 ![] bcast_S_S16x4096 main_cst_14
  let main_v41 : IVec S16x4096 1 := cmpf .olt main_v39 main_v40
  let main_c_15 : IVec S_ 1 := constantI S_ 1 1#1
  let main_v42 : IVec S_ 1 := (fun x v => Host.reduce IntOp.andi x v reducesTo_S16x4096_S_d0_1 h_S_) main_v41 main_c_15
  let main_v43 : IVec S_ 1 := andi main_v38 main_v42
  let main_v44 : FVec F S4096x16 .f32 := Host.absf main_arg9
  let main_cst_16 : FVec F S_ .f32 := constant S_ .f32 0x7F800000#32
  let main_v45 : FVec F S4096x16 .f32 := broadcastInDim S4096x16 ![] bcast_S_S4096x16 main_cst_16
  let main_v46 : IVec S4096x16 1 := cmpf .olt main_v44 main_v45
  let main_c_17 : IVec S_ 1 := constantI S_ 1 1#1
  let main_v47 : IVec S_ 1 := (fun x v => Host.reduce IntOp.andi x v reducesTo_S4096x16_S_d0_1 h_S_) main_v46 main_c_17
  let main_v48 : IVec S_ 1 := andi main_v43 main_v47
  main_v48

def fn_part1 {F : FTy → Type} [FloatOps F] (main_arg4 : FVec F S4096x4096 .f32) (main_arg5 : FVec F S16x4096 .f32) (main_arg6 : FVec F S4096x16 .f32) (main_arg7 : FVec F S4096x4096 .f32) (main_arg8 : FVec F S16x4096 .f32) (main_arg9 : FVec F S4096x16 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S16x4096 .f32 := Host.absf main_arg5
  let main_cst_8 : FVec F S_ .f32 := constant S_ .f32 0x7F800000#32
  let main_v25 : FVec F S16x4096 .f32 := broadcastInDim S16x4096 ![] bcast_S_S16x4096 main_cst_8
  let main_v26 : IVec S16x4096 1 := cmpf .olt main_v24 main_v25
  let main_c_9 : IVec S_ 1 := constantI S_ 1 1#1
  let main_v27 : IVec S_ 1 := (fun x v => Host.reduce IntOp.andi x v reducesTo_S16x4096_S_d0_1 h_S_) main_v26 main_c_9
  let main_v28 : IVec S_ 1 := andi main_v23 main_v27
  let main_v29 : FVec F S4096x16 .f32 := Host.absf main_arg6
  let main_cst_10 : FVec F S_ .f32 := constant S_ .f32 0x7F800000#32
  let main_v30 : FVec F S4096x16 .f32 := broadcastInDim S4096x16 ![] bcast_S_S4096x16 main_cst_10
  let main_v31 : IVec S4096x16 1 := cmpf .olt main_v29 main_v30
  let main_c_11 : IVec S_ 1 := constantI S_ 1 1#1
  let main_v32 : IVec S_ 1 := (fun x v => Host.reduce IntOp.andi x v reducesTo_S4096x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096x4096 .f32) (main_arg5 : FVec F S16x4096 .f32) (main_arg6 : FVec F S4096x16 .f32) (main_arg7 : FVec F S4096x4096 .f32) (main_arg8 : FVec F S16x4096 .f32) (main_arg9 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_arg5 main_arg6 main_arg7 main_arg8 main_arg9 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S8192x4096 : Shape := ⟨2, ![8192, 4096]⟩
abbrev S1024x1024 : Shape := ⟨2, ![1024, 1024]⟩
abbrev S16x1024 : Shape := ⟨2, ![16, 1024]⟩
abbrev S1024x16 : Shape := ⟨2, ![1024, 16]⟩

abbrev nBuf : Space → Nat
  | .hbm => 27
  | .vmem => 36
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096x4096, .f32⟩
  | .hbm, ⟨5, _⟩ => ⟨S16x4096, .f32⟩
  | .hbm, ⟨6, _⟩ => ⟨S4096x16, .f32⟩
  | .hbm, ⟨7, _⟩ => ⟨S4096x4096, .f32⟩
  | .hbm, ⟨8, _⟩ => ⟨S16x4096, .f32⟩
  | .hbm, ⟨9, _⟩ => ⟨S4096x16, .f32⟩
  | .hbm, ⟨10, _⟩ => ⟨S8192x4096, .f32⟩
  | .hbm, ⟨11, _⟩ => ⟨S8192x4096, .bf16⟩
  | .hbm, ⟨12, _⟩ => ⟨S4096x4096, .bf16⟩
  | .hbm, ⟨13, _⟩ => ⟨S16x4096, .bf16⟩
  | .hbm, ⟨14, _⟩ => ⟨S4096x16, .bf16⟩
  | .hbm, ⟨15, _⟩ => ⟨S4096x4096, .bf16⟩
  | .hbm, ⟨16, _⟩ => ⟨S16x4096, .bf16⟩
  | .hbm, ⟨17, _⟩ => ⟨S4096x16, .bf16⟩
  | .hbm, ⟨18, _⟩ => ⟨S4096x4096, .bf16⟩
  | .hbm, ⟨19, _⟩ => ⟨S16x4096, .bf16⟩
  | .hbm, ⟨20, _⟩ => ⟨S4096x16, .bf16⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x16, .bf16⟩
  | .local _ .vmem, ⟨7, _⟩ => ⟨S1024x16, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x16, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S16x1024, .bf16⟩
  | .local _ .vmem, ⟨17, _⟩ => ⟨S16x1024, .bf16⟩
  | .local _ .vmem, ⟨18, _⟩ => ⟨S1024x16, .bf16⟩
  | .local _ .vmem, ⟨19, _⟩ => ⟨S1024x16, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | .local _ .vmem, ⟨23, _⟩ => ⟨S1024x16, .f32⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .bf16⟩
  | .local _ .vmem, ⟨28, _⟩ => ⟨S16x1024, .bf16⟩
  | .local _ .vmem, ⟨29, _⟩ => ⟨S16x1024, .bf16⟩
  | .local _ .vmem, ⟨30, _⟩ => ⟨S1024x16, .bf16⟩
  | .local _ .vmem, ⟨31, _⟩ => ⟨S1024x16, .bf16⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S1024x16, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc1_scratch1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_scratch0 : Ref sig .tc := ⟨.vmem, 34, rfl⟩
abbrev cc2_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S16x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1024x16 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev grid2 : Pipeline.Grid := ⟨3, ![8, 4, 4], ![false, false, false]⟩

def k2_cond2 (i : grid2.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S16x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, false, true]

abbrev stage2_3 : Fin 2 → Memref sig .tc .vmem S1024x16 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  dot_S1024x1024_S16x1024_S1024x16_1_1_0_0_n_n_wf : DotDims.WF S1024x1024 S16x1024 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S16x4096.size a
  hwx0_2 : ∀ i : grid0.Coords, EltTy.bits .bf16 = 32 ∨ (Rect.block (s := S16x4096) S16x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .bf16 = 32 ∨ (Rect.block (s := S4096x16) S1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1024.size a ≤ S16x4096.size a
  hwx1_2 : ∀ i : grid1.Coords, EltTy.bits .bf16 = 32 ∨ (Rect.block (s := S16x4096) S16x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S4096x16.size a
  hwx1_3 : ∀ i : grid1.Coords, EltTy.bits .bf16 = 32 ∨ (Rect.block (s := S4096x16) S1024x16.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x4096.size a
  hwx1_4 : ∀ i : grid1.Coords, EltTy.bits .f32 = 32 ∨ (Rect.block (s := S8192x4096) S1024x1024.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x4096.size a
  hwx2_0 : ∀ i : grid2.Coords, EltTy.bits .bf16 = 32 ∨ (Rect.block (s := S8192x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x1024.size a ≤ S16x4096.size a
  hwx2_2 : ∀ i : grid2.Coords, EltTy.bits .bf16 = 32 ∨ (Rect.block (s := S16x4096) S16x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x16.size a ≤ S4096x16.size a
  hwx2_3 : ∀ i : grid2.Coords, EltTy.bits .bf16 = 32 ∨ (Rect.block (s := S4096x16) S1024x16.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S8192x4096.size a
  hwx2_4 : ∀ i : grid2.Coords, EltTy.bits .f32 = 32 ∨ (Rect.block (s := S8192x4096) S1024x1024.size (cc2_transform_4 i) (hinb2_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S16x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1024x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S16x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S1024x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4x2048x16 : Shape := ⟨3, ![4, 2048, 16]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096x4096, .f32⟩
  | .hbm, ⟨5, _⟩ => ⟨S16x4096, .f32⟩
  | .hbm, ⟨6, _⟩ => ⟨S4096x16, .f32⟩
  | .hbm, ⟨7, _⟩ => ⟨S4096x4096, .f32⟩
  | .hbm, ⟨8, _⟩ => ⟨S16x4096, .f32⟩
  | .hbm, ⟨9, _⟩ => ⟨S4096x16, .f32⟩
  | .hbm, ⟨10, _⟩ => ⟨S4x2048x4096, .f32⟩
  | .hbm, ⟨11, _⟩ => ⟨S4x2048x16, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x16, .f32⟩
  | .hbm, ⟨19, _⟩ => ⟨S4x2048x4096, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x16, .f32⟩
  | .hbm, ⟨26, _⟩ => ⟨S4x2048x4096, .f32⟩
  | .hbm, ⟨27, _⟩ => ⟨S_, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Body.Run.lean ====
import proofs.«101342_j17368847745269_1_alg».proof.Proof.Gen.KernelIdeal.Launch
import proofs.«101342_j17368847745269_1_alg».proof.Proof.Gen.KernelIdeal.Skeleton
import proofs.«101342_j17368847745269_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three projections run one kernel function. -/
theorem kernel1_eq : @cc1__lora_kernel F _ _ = cc0__lora_kernel := rfl
theorem kernel2_eq : @cc2__lora_kernel F _ _ = cc0__lora_kernel := rfl

/-- The seven whole buffers the body is called with: the x, w, a and b blocks, the output block, the two accumulators. -/
structure Bufs where
  x : Memref sig .tc .vmem S1024x1024 .bf16
  hx : x.IsWhole
  w : Memref sig .tc .vmem S1024x1024 .bf16
  hw : w.IsWhole
  a : Memref sig .tc .vmem S16x1024 .bf16
  ha : a.IsWhole
  b : Memref sig .tc .vmem S1024x16 .bf16
  hb : b.IsWhole
  o : Memref sig .tc .vmem S1024x1024 .f32
  ho : o.IsWhole
  acc : Memref sig .tc .vmem S1024x1024 .f32
  hacc : acc.IsWhole
  lora : Memref sig .tc .vmem S1024x16 .f32
  hlora : lora.IsWhole

abbrev kernel (i : grid0.Coords) (B : Bufs) : Prog (TpuEff nD τ sig (Elt F) Λ₀ .tc) PUnit :=
  cc0__lora_kernel i B.x B.hx B.w B.hw B.a B.ha B.b B.hb B.o B.ho B.acc B.hacc B.lora B.hlora

abbrev condFirst (i : grid0.Coords) : Prop := (Scalar.cmpi .ne (Scalar.extui (Scalar.cmpi .eq (BitVec.ofNat 32 (i 2).val) 0#32)) 0#32) = 1#1
abbrev condLast (i : grid0.Coords) : Prop := k0_cond2 i = 1#1

variable (c : Dev nD) (i : grid0.Coords) (B : Bufs)
  (x0 : Vec F S1024x1024 .bf16) (x1 : Vec F S1024x1024 .bf16) (x2 : Vec F S16x1024 .bf16) (x3 : Vec F S1024x16 .bf16)
  (xs0 : Vec F S1024x1024 .f32) (xs1 : Vec F S1024x16 .f32)

/-- First reduction tile: both accumulators, at anything, are reset and updated; the output block is untouched. -/
noncomputable def runFirst (hc0 : condFirst i) (hc1 : ¬condLast i) :
    Σ' (LS0 : List (View.Piece (Elt F) S1024x1024 .f32)), { LS1 : List (View.Piece (Elt F) S1024x16 .f32) //
      ∀ (xo : Vec F S1024x1024 .f32) (E : Set ℕ) (K : PUnit → sProp 𝕄),
        iprop(owns (c : Thread nD τ) B.x fullShare x0 ∗ owns (c : Thread nD τ) B.w fullShare x1 ∗ owns (c : Thread nD τ) B.a fullShare x2 ∗ owns (c : Thread nD τ) B.b fullShare x3 ∗ owns (c : Thread nD τ) B.o fullShare xo
            ∗ (∃ d, owns (c : Thread nD τ) B.acc fullShare d) ∗ (∃ d, owns (c : Thread nD τ) B.lora fullShare d)
            ∗ (iprop(owns (c : Thread nD τ) B.x fullShare x0 ∗ owns (c : Thread nD τ) B.w fullShare x1 ∗ owns (c : Thread nD τ) B.a fullShare x2 ∗ owns (c : Thread nD τ) B.b fullShare x3 ∗ owns (c : Thread nD τ) B.o fullShare xo
                ∗ (∃ f, B.acc.view.loc (c : Thread nD τ) ↦[B.acc.view.set]{fullShare} B.acc.view.writes (Elt F) f LS0) ∗ (∃ f, B.lora.view.loc (c : Thread nD τ) ↦[B.lora.view.set]{fullShare} B.lora.view.writes (Elt F) f LS1)) -∗ K ⟨⟩))
          ⊢ wp frame (wpE (defs₀ (F := F)) Variants.none c none) E (kernel i B) K } := by
  refine ⟨?_, ?_, fun xo E K => ?run⟩
  case run =>
    simp only [kernel, cc0__lora_kernel_eq_skeleton]; unfold cc0__lora_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := B.hx.eq_unread hf0; obtain rfl := B.hw.eq_unread hf1; obtain rfl := B.ha.eq_unread hf2; obtain rfl := B.hb.eq_unread hf3; obtain rfl := B.ho.eq_unread hf4
    sl_exec (disch := first | exact hc0 | exact hc1)
    sl_step
    iapply Hk
    isplitl [H0]
    · iexists _; isplitr; · ipureintro; exact B.hx.read_unread _
      iexact H0
    isplitl [H1]
    · iexists _; isplitr; · ipureintro; exact B.hw.read_unread _
      iexact H1
    isplitl [H2]
    · iexists _; isplitr; · ipureintro; exact B.ha.read_unread _
      iexact H2
    isplitl [H3]
    · iexists _; isplitr; · ipureintro; exact B.hb.read_unread _
      iexact H3
    isplitl [H4]
    · iexists _; isplitr; · ipureintro; exact B.ho.read_unread _
      iexact H4
    isplitl [HS0]; · iexists _; iexact HS0
    iexists _; iexact HS1

/-- A middle tile: the accumulators, at what the point before left, are updated. -/
noncomputable def runMid (hc0 : ¬condFirst i) (hc1 : ¬condLast i) :
    Σ' (LS0 : List (View.Piece (Elt F) S1024x1024 .f32)), { LS1 : List (View.Piece (Elt F) S1024x16 .f32) //
      ∀ (xo : Vec F S1024x1024 .f32) (E : Set ℕ) (K : PUnit → sProp 𝕄),
        iprop(owns (c : Thread nD τ) B.x fullShare x0 ∗ owns (c : Thread nD τ) B.w fullShare x1 ∗ owns (c : Thread nD τ) B.a fullShare x2 ∗ owns (c : Thread nD τ) B.b fullShare x3 ∗ owns (c : Thread nD τ) B.o fullShare xo
            ∗ owns (c : Thread nD τ) B.acc fullShare xs0 ∗ owns (c : Thread nD τ) B.lora fullShare xs1
            ∗ (iprop(owns (c : Thread nD τ) B.x fullShare x0 ∗ owns (c : Thread nD τ) B.w fullShare x1 ∗ owns (c : Thread nD τ) B.a fullShare x2 ∗ owns (c : Thread nD τ) B.b fullShare x3 ∗ owns (c : Thread nD τ) B.o fullShare xo
                ∗ (∃ f, B.acc.view.loc (c : Thread nD τ) ↦[B.acc.view.set]{fullShare} B.acc.view.writes (Elt F) f LS0) ∗ (∃ f, B.lora.view.loc (c : Thread nD τ) ↦[B.lora.view.set]{fullShare} B.lora.view.writes (Elt F) f LS1)) -∗ K ⟨⟩))
          ⊢ wp frame (wpE (defs₀ (F := F)) Variants.none c none) E (kernel i B) K } := by
  refine ⟨?_, ?_, fun xo E K => ?run⟩
  case run =>
    simp only [kernel, cc0__lora_kernel_eq_skeleton]; unfold cc0__lora_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := B.hx.eq_unread hf0; obtain rfl := B.hw.eq_unread hf1; obtain rfl := B.ha.eq_unread hf2; obtain rfl := B.hb.eq_unread hf3; obtain rfl := B.ho.eq_unread hf4
    obtain rfl := B.hacc.eq_unread hfs0; obtain rfl := B.hlora.eq_unread hfs1
    sl_exec (disch := first | exact hc0 | exact hc1)
    sl_step
    iapply Hk
    isplitl [H0]
    · iexists _; isplitr; · ipureintro; exact B.hx.read_unread _
      iexact H0
    isplitl [H1]
    · iexists _; isplitr; · ipureintro; exact B.hw.read_unread _
      iexact H1
    isplitl [H2]
    · iexists _; isplitr; · ipureintro; exact B.ha.read_unread _
      iexact H2
    isplitl [H3]
    · iexists _; isplitr; · ipureintro; exact B.hb.read_unread _
      iexact H3
    isplitl [H4]
    · iexists _; isplitr; · ipureintro; exact B.ho.read_unread _
      iexact H4
    isplitl [HS0]; · iexists _; iexact HS0
    iexists _; iexact HS1

/-- The last tile: the accumulators are updated and the output block, at anything, is formed from them. -/
noncomputable def runLast (hc0 : ¬condFirst i) (hc1 : condLast i) :
    Σ' (L4 : List (View.Piece (Elt F) S1024x1024 .f32)) (LS0 : List (View.Piece (Elt F) S1024x1024 .f32)), { LS1 : List (View.Piece (Elt F) S1024x16 .f32) //
      ∀ (E : Set ℕ) (K : PUnit → sProp 𝕄),
        iprop(owns (c : Thread nD τ) B.x fullShare x0 ∗ owns (c : Thread nD τ) B.w fullShare x1 ∗ owns (c : Thread nD τ) B.a fullShare x2 ∗ owns (c : Thread nD τ) B.b fullShare x3 ∗ (∃ d, owns (c : Thread nD τ) B.o fullShare d)
            ∗ owns (c : Thread nD τ) B.acc fullShare xs0 ∗ owns (c : Thread nD τ) B.lora fullShare xs1
            ∗ (iprop(owns (c : Thread nD τ) B.x fullShare x0 ∗ owns (c : Thread nD τ) B.w fullShare x1 ∗ owns (c : Thread nD τ) B.a fullShare x2 ∗ owns (c : Thread nD τ) B.b fullShare x3 ∗ (∃ f, B.o.view.loc (c : Thread nD τ) ↦[B.o.view.set]{fullShare} B.o.view.writes (Elt F) f L4)
                ∗ (∃ f, B.acc.view.loc (c : Thread nD τ) ↦[B.acc.view.set]{fullShare} B.acc.view.writes (Elt F) f LS0) ∗ (∃ f, B.lora.view.loc (c : Thread nD τ) ↦[B.lora.view.set]{fullShare} B.lora.view.writes (Elt F) f LS1)) -∗ K ⟨⟩))
          ⊢ wp frame (wpE (defs₀ (F := F)) Variants.none c none) E (kernel i B) K } := by
  refine ⟨?_, ?_, ?_, fun E K => ?run⟩
  case run =>
    simp only [kernel, cc0__lora_kernel_eq_skeleton]; unfold cc0__lora_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := B.hx.eq_unread hf0; obtain rfl := B.hw.eq_unread hf1; obtain rfl := B.ha.eq_unread hf2; obtain rfl := B.hb.eq_unread hf3
    obtain rfl := B.hacc.eq_unread hfs0; obtain rfl := B.hlora.eq_unread hfs1
    sl_exec (disch := first | exact hc0 | exact hc1)
    sl_step
    iapply Hk
    isplitl [H0]
    · iexists _; isplitr; · ipureintro; exact B.hx.read_unread _
      iexact H0
    isplitl [H1]
    · iexists _; isplitr; · ipureintro; exact B.hw.read_unread _
      iexact H1
    isplitl [H2]
    · iexists _; isplitr; · ipureintro; exact B.ha.read_unread _
      iexact H2
    isplitl [H3]
    · iexists _; isplitr; · ipureintro; exact B.hb.read_unread _
      iexact H3
    isplitl [H4]; · iexists _; iexact H4
    isplitl [HS0]; · iexists _; iexact HS0
    iexists _; iexact HS1

end Cert.KernelIdeal.Body

end
-- ==== Proof.Body.Step.lean ====
import proofs.«101342_j17368847745269_1_alg».proof.Proof.Body.Run
import Idealize.ShloMosaic.Lib.Pipeline.Value

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem offsets_zero : (![0, 0] : Fin 2 → Nat) = fun _ => 0 :=
  funext fun a => by match a with | ⟨0, _⟩ => rfl | ⟨1, _⟩ => rfl

variable (c : Dev nD) (i : grid0.Coords) (B : Bufs)
  (x0 : Vec F S1024x1024 .bf16) (x1 : Vec F S1024x1024 .bf16) (x2 : Vec F S16x1024 .bf16) (x3 : Vec F S1024x16 .bf16)
  (xs0 : Vec F S1024x1024 .f32) (xs1 : Vec F S1024x16 .f32)

/-- The later whole-block store is what remains: the update of the zero block just stored. -/
theorem accFirst_eq (hc0 : condFirst i) (hc1 : ¬condLast i) :
    View.canon (runFirst c i B x0 x1 x2 x3 hc0 hc1).1 = k0_pay4 x0 x1 (k0_pay1 (F := F)) := by
  unfold runFirst; dsimp only; sl_unfold_words
  rw [View.canon_cons_unit_zero (S := S1024x1024) offsets_zero, View.readCov_unit_zero (S := S1024x1024) _ offsets_zero]
  simp only [View.readAt_eq_ld, B.hx.read_unread, B.hw.read_unread, View.ld_unit_zero (S := S1024x1024) offsets_zero]
theorem loraFirst_eq (hc0 : condFirst i) (hc1 : ¬condLast i) :
    View.canon (runFirst c i B x0 x1 x2 x3 hc0 hc1).2.1 = k0_pay5 x0 x2 (k0_pay2 (F := F)) := by
  unfold runFirst; dsimp only; sl_unfold_words
  rw [View.canon_cons_unit_zero (S := S1024x16) offsets_zero, View.readCov_unit_zero (S := S1024x16) _ offsets_zero]
  simp only [View.readAt_eq_ld, B.hx.read_unread, B.ha.read_unread, View.ld_unit_zero (S := S1024x1024) offsets_zero, View.ld_unit_zero (S := S16x1024) offsets_zero]

theorem accMid_eq (hc0 : ¬condFirst i) (hc1 : ¬condLast i) :
    View.canon (runMid c i B x0 x1 x2 x3 xs0 xs1 hc0 hc1).1 = k0_pay4 x0 x1 xs0 := by
  unfold runMid; dsimp only; sl_unfold_words
  rw [View.canon_unit_zero (S := S1024x1024) offsets_zero]
  simp only [View.readAt_eq_ld, B.hx.read_unread, B.hw.read_unread, B.hacc.read_unread, View.ld_unit_zero (S := S1024x1024) offsets_zero]
theorem loraMid_eq (hc0 : ¬condFirst i) (hc1 : ¬condLast i) :
    View.canon (runMid c i B x0 x1 x2 x3 xs0 xs1 hc0 hc1).2.1 = k0_pay5 x0 x2 xs1 := by
  unfold runMid; dsimp only; sl_unfold_words
  rw [View.canon_unit_zero (S := S1024x16) offsets_zero]
  simp only [View.readAt_eq_ld, B.hx.read_unread, B.ha.read_unread, B.hlora.read_unread, View.ld_unit_zero (S := S1024x1024) offsets_zero, View.ld_unit_zero (S := S16x1024) offsets_zero, View.ld_unit_zero (S := S1024x16) offsets_zero]

theorem accLast_eq (hc0 : ¬condFirst i) (hc1 : condLast i) :
    View.canon (runLast c i B x0 x1 x2 x3 xs0 xs1 hc0 hc1).2.1 = k0_pay4 x0 x1 xs0 := by
  unfold runLast; dsimp only; sl_unfold_words
  rw [View.canon_unit_zero (S := S1024x1024) offsets_zero]
  simp only [View.readAt_eq_ld, B.hx.read_unread, B.hw.read_unread, B.hacc.read_unread, View.ld_unit_zero (S := S1024x1024) offsets_zero]
theorem loraLast_eq (hc0 : ¬condFirst i) (hc1 : condLast i) :
    View.canon (runLast c i B x0 x1 x2 x3 xs0 xs1 hc0 hc1).2.2.1 = k0_pay5 x0 x2 xs1 := by
  unfold runLast; dsimp only; sl_unfold_words
  rw [View.canon_unit_zero (S := S1024x16) offsets_zero]
  simp only [View.readAt_eq_ld, B.hx.read_unread, B.ha.read_unread, B.hlora.read_unread, View.ld_unit_zero (S := S1024x1024) offsets_zero, View.ld_unit_zero (S := S16x1024) offsets_zero, View.ld_unit_zero (S := S1024x16) offsets_zero]
/-- The output block is computed from both accumulators read back after their updates. -/
theorem outLast_eq (hc0 : ¬condFirst i) (hc1 : condLast i) :
    View.canon (runLast c i B x0 x1 x2 x3 xs0 xs1 hc0 hc1).1 = k0_pay6 x3 (k0_pay5 x0 x2 xs1) (k0_pay4 x0 x1 xs0) := by
  unfold runLast; dsimp only; sl_unfold_words
  rw [View.canon_unit_zero (S := S1024x1024) offsets_zero]
  simp only [View.readAt_eq_ld, B.hx.read_unread, B.hw.read_unread, B.ha.read_unread, B.hb.read_unread, B.hacc.read_unread, B.hlora.read_unread, View.ld_unit_zero (S := S1024x1024) offsets_zero, View.ld_unit_zero (S := S16x1024) offsets_zero, View.ld_unit_zero (S := S1024x16) offsets_zero, View.readCov_unit_zero (S := S1024x1024) _ offsets_zero, View.readCov_unit_zero (S := S1024x16) _ offsets_zero]

variable {D0 D1 D2 D3 D4 : Type} (xo : D4 → Vec F S1024x1024 .f32)

/-- The body at a first reduction tile, inside any frame R, G, O: the accumulators, held at anything, end at the first tile's products on a zero start. -/
theorem sound_first (A L R G O : sProp 𝕄) (hc0 : condFirst i) (hc1 : ¬condLast i)
    (hA : A ⊢ iprop(∃ d, owns (c : Thread nD τ) B.acc fullShare d)) (hL : L ⊢ iprop(∃ d, owns (c : Thread nD τ) B.lora fullShare d)) :
    iprop(iprop(iprop(iprop(A ∗ L) ∗ R) ∗ G) ∗ O ∗ (∃ _ : D0, owns (c : Thread nD τ) B.x fullShare x0) ∗ (∃ _ : D1, owns (c : Thread nD τ) B.w fullShare x1) ∗ (∃ _ : D2, owns (c : Thread nD τ) B.a fullShare x2) ∗ (∃ _ : D3, owns (c : Thread nD τ) B.b fullShare x3) ∗ (∃ d, owns (c : Thread nD τ) B.o fullShare (xo d)))
      ⊢ wp frame (wpE (defs₀ (F := F)) Variants.none c none) Set.univ (kernel i B) (fun _ =>
        iprop(iprop(iprop(iprop(owns (c : Thread nD τ) B.acc fullShare (k0_pay4 x0 x1 (k0_pay1 (F := F))) ∗ owns (c : Thread nD τ) B.lora fullShare (k0_pay5 x0 x2 (k0_pay2 (F := F)))) ∗ R) ∗ G) ∗ O
          ∗ owns (c : Thread nD τ) B.x fullShare x0 ∗ owns (c : Thread nD τ) B.w fullShare x1 ∗ owns (c : Thread nD τ) B.a fullShare x2 ∗ owns (c : Thread nD τ) B.b fullShare x3 ∗ (∃ d, owns (c : Thread nD τ) B.o fullShare (xo d)))) := by
  iintro ⟨⟨⟨⟨HS0, HS1⟩, Hrest⟩, Hg⟩, Ho, ⟨%d0, H0⟩, ⟨%d1, H1⟩, ⟨%d2, H2⟩, ⟨%d3, H3⟩, ⟨%d4, H4⟩⟩
  iapply ((runFirst c i B x0 x1 x2 x3 hc0 hc1).2.2 _ Set.univ _)
  isplitl [H0]; · iexact H0
  isplitl [H1]; · iexact H1
  isplitl [H2]; · iexact H2
  isplitl [H3]; · iexact H3
  isplitl [H4]; · iexact H4
  isplitl [HS0]; · iapply hA; iexact HS0
  isplitl [HS1]; · iapply hL; iexact HS1
  iintro ⟨H0, H1, H2, H3, H4, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact (View.read_writes_eq_canon _ _ _ (View.cover_of_tiledL _ S1024x1024.size (by sl_kernel_rfl))).trans (accFirst_eq c i B x0 x1 x2 x3 hc0 hc1)
        · unfold owns; iexists _; isplitr
          swap; · iexact HS1
          ipureintro; exact (View.read_writes_eq_canon _ _ _ (View.cover_of_tiledL _ S1024x16.size (by sl_kernel_rfl))).trans (loraFirst_eq c i B x0 x1 x2 x3 hc0 hc1)
      iexact Hrest
    iexact Hg
  isplitl [Ho]; · iexact Ho
  isplitl [H0]; · iexact H0
  isplitl [H1]; · iexact H1
  isplitl [H2]; · iexact H2
  isplitl [H3]; · iexact H3
  iexists _; iexact H4

/-- At a middle tile the accumulators, held at what the point before left, each gain the tile's products. -/
theorem sound_mid (R G O : sProp 𝕄) (hc0 : ¬condFirst i) (hc1 : ¬condLast i) :
    iprop(iprop(iprop(iprop(owns (c : Thread nD τ) B.acc fullShare xs0 ∗ owns (c : Thread nD τ) B.lora fullShare xs1) ∗ R) ∗ G) ∗ O ∗ (∃ _ : D0, owns (c : Thread nD τ) B.x fullShare x0) ∗ (∃ _ : D1, owns (c : Thread nD τ) B.w fullShare x1) ∗ (∃ _ : D2, owns (c : Thread nD τ) B.a fullShare x2) ∗ (∃ _ : D3, owns (c : Thread nD τ) B.b fullShare x3) ∗ (∃ d, owns (c : Thread nD τ) B.o fullShare (xo d)))
      ⊢ wp frame (wpE (defs₀ (F := F)) Variants.none c none) Set.univ (kernel i B) (fun _ =>
        iprop(iprop(iprop(iprop(owns (c : Thread nD τ) B.acc fullShare (k0_pay4 x0 x1 xs0) ∗ owns (c : Thread nD τ) B.lora fullShare (k0_pay5 x0 x2 xs1)) ∗ R) ∗ G) ∗ O
          ∗ owns (c : Thread nD τ) B.x fullShare x0 ∗ owns (c : Thread nD τ) B.w fullShare x1 ∗ owns (c : Thread nD τ) B.a fullShare x2 ∗ owns (c : Thread nD τ) B.b fullShare x3 ∗ (∃ d, owns (c : Thread nD τ) B.o fullShare (xo d)))) := by
  iintro ⟨⟨⟨⟨HS0, HS1⟩, Hrest⟩, Hg⟩, Ho, ⟨%d0, H0⟩, ⟨%d1, H1⟩, ⟨%d2, H2⟩, ⟨%d3, H3⟩, ⟨%d4, H4⟩⟩
  iapply ((runMid c i B x0 x1 x2 x3 xs0 xs1 hc0 hc1).2.2 _ Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  iintro ⟨H0, H1, H2, H3, H4, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact (View.read_writes_eq_canon _ _ _ (View.cover_of_tiledL _ S1024x1024.size (by sl_kernel_rfl))).trans (accMid_eq c i B x0 x1 x2 x3 xs0 xs1 hc0 hc1)
        · unfold owns; iexists _; isplitr
          swap; · iexact HS1
          ipureintro; exact (View.read_writes_eq_canon _ _ _ (View.cover_of_tiledL _ S1024x16.size (by sl_kernel_rfl))).trans (loraMid_eq c i B x0 x1 x2 x3 xs0 xs1 hc0 hc1)
      iexact Hrest
    iexact Hg
  isplitl [Ho]; · iexact Ho
  isplitl [H0]; · iexact H0
  isplitl [H1]; · iexact H1
  isplitl [H2]; · iexact H2
  isplitl [H3]; · iexact H3
  iexists _; iexact H4

/-- At the last tile the accumulators gain the tile's products and the output block is formed from them. -/
theorem sound_last (R G O : sProp 𝕄) (hc0 : ¬condFirst i) (hc1 : condLast i) :
    iprop(iprop(iprop(iprop(owns (c : Thread nD τ) B.acc fullShare xs0 ∗ owns (c : Thread nD τ) B.lora fullShare xs1) ∗ R) ∗ G) ∗ O ∗ (∃ _ : D0, owns (c : Thread nD τ) B.x fullShare x0) ∗ (∃ _ : D1, owns (c : Thread nD τ) B.w fullShare x1) ∗ (∃ _ : D2, owns (c : Thread nD τ) B.a fullShare x2) ∗ (∃ _ : D3, owns (c : Thread nD τ) B.b fullShare x3) ∗ (∃ d, owns (c : Thread nD τ) B.o fullShare (xo d)))
      ⊢ wp frame (wpE (defs₀ (F := F)) Variants.none c none) Set.univ (kernel i B) (fun _ =>
        iprop(iprop(iprop(iprop(owns (c : Thread nD τ) B.acc fullShare (k0_pay4 x0 x1 xs0) ∗ owns (c : Thread nD τ) B.lora fullShare (k0_pay5 x0 x2 xs1)) ∗ R) ∗ G) ∗ O
          ∗ owns (c : Thread nD τ) B.x fullShare x0 ∗ owns (c : Thread nD τ) B.w fullShare x1 ∗ owns (c : Thread nD τ) B.a fullShare x2 ∗ owns (c : Thread nD τ) B.b fullShare x3 ∗ owns (c : Thread nD τ) B.o fullShare (k0_pay6 x3 (k0_pay5 x0 x2 xs1) (k0_pay4 x0 x1 xs0)))) := by
  iintro ⟨⟨⟨⟨HS0, HS1⟩, Hrest⟩, Hg⟩, Ho, ⟨%d0, H0⟩, ⟨%d1, H1⟩, ⟨%d2, H2⟩, ⟨%d3, H3⟩, ⟨%d4, H4⟩⟩
  iapply ((runLast c i B x0 x1 x2 x3 xs0 xs1 hc0 hc1).2.2.2 Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, ⟨%e4, H4⟩, ⟨%es0, HS0⟩, ⟨%es1, HS1⟩⟩
  isplitl [HS0 HS1 Hrest Hg]
  · isplitl [HS0 HS1 Hrest]
    · isplitl [HS0 HS1]
      · isplitl [HS0]
        · unfold owns; iexists _; isplitr
          swap; · iexact HS0
          ipureintro; exact (View.read_writes_eq_canon _ _ _ (View.cover_of_tiledL _ S1024x1024.size (by sl_kernel_rfl))).trans (accLast_eq c i B x0 x1 x2 x3 xs0 xs1 hc0 hc1)
        · unfold owns; iexists _; isplitr
          swap; · iexact HS1
          ipureintro; exact (View.read_writes_eq_canon _ _ _ (View.cover_of_tiledL _ S1024x16.size (by sl_kernel_rfl))).trans (loraLast_eq c i B x0 x1 x2 x3 xs0 xs1 hc0 hc1)
      iexact Hrest
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact (View.read_writes_eq_canon _ _ _ (View.cover_of_tiledL _ S1024x1024.size (by sl_kernel_rfl))).trans (outLast_eq c i B x0 x1 x2 x3 xs0 xs1 hc0 hc1)

section Accs
variable {N : ℕ} (xb wb : (n : ℕ) → n < N → Vec F S1024x1024 .bf16) (ab : (n : ℕ) → n < N → Vec F S16x1024 .bf16)

/-- The two accumulators after point n: the tile's products added to a zero start at tile 0, to what the point before left otherwise. -/
def accs : (n : ℕ) → n < N → Vec F S1024x1024 .f32 × Vec F S1024x16 .f32
  | 0, hn => (k0_pay4 (xb 0 hn) (wb 0 hn) k0_pay1, k0_pay5 (xb 0 hn) (ab 0 hn) k0_pay2)
  | n + 1, hn =>
    if (n + 1) % 4 = 0 then (k0_pay4 (xb (n + 1) hn) (wb (n + 1) hn) k0_pay1, k0_pay5 (xb (n + 1) hn) (ab (n + 1) hn) k0_pay2)
    else (k0_pay4 (xb (n + 1) hn) (wb (n + 1) hn) (accs n (Nat.lt_of_succ_lt hn)).1, k0_pay5 (xb (n + 1) hn) (ab (n + 1) hn) (accs n (Nat.lt_of_succ_lt hn)).2)

theorem accs_first (n : ℕ) (hn : n < N) (h0 : n % 4 = 0) :
    accs xb wb ab n hn = (k0_pay4 (xb n hn) (wb n hn) k0_pay1, k0_pay5 (xb n hn) (ab n hn) k0_pay2) := by
  cases n with
  | zero => rfl
  | succ n => exact if_pos h0

theorem accs_step (n : ℕ) (hn : n < N) (h0 : ¬n % 4 = 0) :
    accs xb wb ab n hn = (k0_pay4 (xb n hn) (wb n hn) (accs xb wb ab (n - 1) (by omega)).1, k0_pay5 (xb n hn) (ab n hn) (accs xb wb ab (n - 1) (by omega)).2) := by
  cases n with
  | zero => exact absurd (Nat.zero_mod _) h0
  | succ n => exact if_neg h0

end Accs

end Cert.KernelIdeal.Body

end
-- ==== Proof.Q.Region.lean ====
import proofs.«101342_j17368847745269_1_alg».proof.Proof.Body.Step

noncomputable section

namespace Cert.KernelIdeal.ProjQ

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The reduction tile runs fastest: the point t is at tile t mod 4. -/
theorem hcondFirst : ∀ t : Fin cfg0.N, condFirst (grid0.coords t) ↔ t.val % 4 = 0 :=
  (by decide +kernel : ∀ t : Fin grid0.N, condFirst (grid0.coords t) ↔ t.val % 4 = 0)
theorem hcondLast : ∀ t : Fin cfg0.N, condLast (grid0.coords t) ↔ t.val % 4 = 3 :=
  (by decide +kernel : ∀ t : Fin grid0.N, condLast (grid0.coords t) ↔ t.val % 4 = 3)
theorem idle_out : ∀ t : Fin cfg0.N, ¬condLast (grid0.coords t) → cfg0.idle 4 (grid0.coords t) = true := by decide +kernel
theorem noFlush_out : ∀ t : Fin cfg0.N, ¬condLast (grid0.coords t) → (cfg0.win 4).flush t = false := by decide +kernel
theorem live_out : ∀ t : Fin cfg0.N, condLast (grid0.coords t) → cfg0.idle 4 (grid0.coords t) = false := by decide +kernel

abbrev accM : Memref sig .tc .vmem S1024x1024 .f32 := Memref.whole cc0_scratch0
abbrev loraM : Memref sig .tc .vmem S1024x16 .f32 := Memref.whole cc0_scratch1
/-- The buffers the body is called with at point t. -/
abbrev bufs (t : Fin cfg0.N) : Bufs :=
  ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), accM, Memref.isWhole_whole _, loraM, Memref.isWhole_whole _⟩

abbrev rest (c : Dev nD) : sProp 𝕄 :=
  Pipeline.scopedRestBut (Ix := Unit) (Name := ℕ) (U := UR sig nD τ) (Lvl := ℕ) (Val := Elt F) spec0 c [cc0_scratch0, cc0_scratch1]

theorem PhiA_eq (c : Dev nD) :
    (Pipeline.ΦA spec0 c : sProp 𝕄)
      = iprop(iprop(iprop((∃ d, owns (c : Thread nD τ) accM fullShare d) ∗ (∃ d, owns (c : Thread nD τ) loraM fullShare d)) ∗ rest c) ∗ (∃ r, prngReg c r)) := by
  unfold Pipeline.ΦA; rw [scopedRest0_split]; simp only [accM, loraM, owns_whole]; try rfl

/-- The accumulators after each point, over the blocks the three input windows hold there. -/
abbrev accsR (c : Dev nD) : (n : ℕ) → n < cfg0.N → Vec F S1024x1024 .f32 × Vec F S1024x16 .f32 :=
  accs (fun n hn => iblk V c 0 ⟨n, hn⟩) (fun n hn => iblk V c 1 ⟨n, hn⟩) (fun n hn => iblk V c 2 ⟨n, hn⟩)

/-- The invariant before position n: at the start nothing is known of the accumulators; afterwards each holds what the point before left. -/
def PhiS (c : Dev nD) : (n : ℕ) → n ≤ cfg0.N → sProp 𝕄
  | 0, _ => Pipeline.ΦA spec0 c
  | n + 1, hn => iprop(iprop(iprop(owns (c : Thread nD τ) accM fullShare (accsR V c n hn).1 ∗ owns (c : Thread nD τ) loraM fullShare (accsR V c n hn).2) ∗ rest c) ∗ (∃ r, prngReg c r))

theorem PhiS_succ (c : Dev nD) (n : ℕ) (hn : n < cfg0.N) :
    PhiS V c (n + 1) hn = iprop(iprop(iprop(owns (c : Thread nD τ) accM fullShare (accsR V c n hn).1 ∗ owns (c : Thread nD τ) loraM fullShare (accsR V c n hn).2) ∗ rest c) ∗ (∃ r, prngReg c r)) := rfl

theorem PhiS_pos (c : Dev nD) (n : ℕ) (h : n ≤ cfg0.N) (hz : n ≠ 0) :
    PhiS V c n h = iprop(iprop(iprop(owns (c : Thread nD τ) accM fullShare (accsR V c (n - 1) (by omega)).1 ∗ owns (c : Thread nD τ) loraM fullShare (accsR V c (n - 1) (by omega)).2) ∗ rest c) ∗ (∃ r, prngReg c r)) := by
  cases n with
  | zero => exact absurd rfl hz
  | succ n => rfl

/-- The proof data: the arrays as found; after the body each input's buffer at its block and the output's at the block formed from the accumulators. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay6 (iblk V c 3 t) (accsR V c t.val t.isLt).2 (accsR V c t.val t.isLt).1
  Φ t := PhiS V c t.val (Nat.le_of_lt_succ t.isLt)
  q _ := fullShare
  owed _ := 0

theorem before_x (c : Dev nD) (t : Fin cfg0.N) (d) : (dat V c).before 0 t d = iblk V c 0 t :=
  ((dat V c).before_in_eq_fetched 0 rfl (fun _ => rfl) (fun _ _ _ => rfl) (fun _ => rfl) t d).trans rfl
theorem before_w (c : Dev nD) (t : Fin cfg0.N) (d) : (dat V c).before 1 t d = iblk V c 1 t :=
  ((dat V c).before_in_eq_fetched 1 rfl (fun _ => rfl) (fun _ _ _ => rfl) (fun _ => rfl) t d).trans rfl
theorem before_a (c : Dev nD) (t : Fin cfg0.N) (d) : (dat V c).before 2 t d = iblk V c 2 t :=
  ((dat V c).before_in_eq_fetched 2 rfl (fun _ => rfl) (fun _ _ _ => rfl) (fun _ => rfl) t d).trans rfl
theorem before_b (c : Dev nD) (t : Fin cfg0.N) (d) : (dat V c).before 3 t d = iblk V c 3 t :=
  ((dat V c).before_in_eq_fetched 3 rfl (fun _ => rfl) (fun _ _ _ => rfl) (fun _ => rfl) t d).trans rfl
/-- The body meets its obligation at every point: the tile t mod 4 says which case runs. -/
theorem body_obligation (c : Dev nD) : BodyObligation (dat (F := F) V c) (defs₀ (F := F)) Variants.none () Set.univ := fun t => by
  rw [bigSep_W0, bigSep_W0]
  show _ ⊢ wp frame _ Set.univ (kernel (grid0.coords t) (bufs t)) (fun _ => iprop(_ ∗ _ ∗ _ ∗ _ ∗ _ ∗ _ ∗ (dat V c).leavesExact 4 t))
  simp only [before_x, before_w, before_a, before_b]
  rw [show (dat V c).Φ t.succ = PhiS V c (t.val + 1) t.isLt from rfl, show (dat V c).Φ t.castSucc = PhiS V c t.val (Nat.le_of_lt t.isLt) from rfl]
  rw [PhiS_succ]
  by_cases h0 : t.val % 4 = 0
  · have hnl : ¬condLast (grid0.coords t) := fun h => by have := (hcondLast t).mp h; omega
    rw [Dat.leavesExact_idle (dat V c) 4 t (idle_out t hnl) (noFlush_out t hnl), show accsR V c t.val t.isLt = _ from accs_first _ _ _ t.val t.isLt h0]
    by_cases hz : t.val = 0
    · rw [show PhiS V c t.val (Nat.le_of_lt t.isLt) = Pipeline.ΦA spec0 c from by obtain ⟨n, hn⟩ := t; subst hz; rfl, PhiA_eq]
      exact sound_first c (grid0.coords t) (bufs t) _ _ _ _ _ _ _ _ _ _ ((hcondFirst t).mpr h0) hnl .rfl .rfl
    · rw [PhiS_pos V c _ _ hz]
      exact sound_first c (grid0.coords t) (bufs t) _ _ _ _ _ _ _ _ _ _ ((hcondFirst t).mpr h0) hnl
        (by iintro H; iexists _; iexact H) (by iintro H; iexists _; iexact H)
  · have hz : t.val ≠ 0 := fun h => h0 (by rw [h])
    rw [PhiS_pos V c _ _ hz]
    by_cases h3 : t.val % 4 = 3
    · have hl : condLast (grid0.coords t) := (hcondLast t).mpr h3
      rw [show (dat V c).leavesExact 4 t = owns (c : Thread nD τ) (bufs t).o fullShare (k0_pay6 (iblk V c 3 t) (accsR V c t.val t.isLt).2 (accsR V c t.val t.isLt).1) from by
        unfold Dat.leavesExact; rw [live_out t hl]; rfl, show accsR V c t.val t.isLt = _ from accs_step _ _ _ t.val t.isLt h0]
      exact sound_last c (grid0.coords t) (bufs t) _ _ _ _ _ _ _ _ _ _ (fun h => h0 ((hcondFirst t).mp h)) hl
    · have hnl : ¬condLast (grid0.coords t) := fun h => h3 ((hcondLast t).mp h)
      rw [Dat.leavesExact_idle (dat V c) 4 t (idle_out t hnl) (noFlush_out t hnl), show accsR V c t.val t.isLt = _ from accs_step _ _ _ t.val t.isLt h0]
      exact sound_mid c (grid0.coords t) (bufs t) _ _ _ _ _ _ _ _ _ _ (fun h => h0 ((hcondFirst t).mp h)) hnl

/-- After any point but the first the invariant gives the launch's back, the accumulators' contents forgotten. -/
theorem hout (c : Dev nD) : (dat V c).Φ (Fin.last cfg0.N) ⊢ Pipeline.ΦA spec0 c := by
  rw [show (dat V c).Φ (Fin.last cfg0.N) = PhiS V c cfg0.N le_rfl from rfl, PhiS_pos V c _ _ (by have : cfg0.N = 128 := N_0; omega), PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.ProjQ

end
-- ==== Proof.K.Region.lean ====
import proofs.«101342_j17368847745269_1_alg».proof.Proof.Body.Step

noncomputable section

namespace Cert.KernelIdeal.ProjK

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The reduction tile runs fastest: the point t is at tile t mod 4. -/
theorem hcondFirst : ∀ t : Fin cfg1.N, condFirst (grid1.coords t) ↔ t.val % 4 = 0 :=
  (by decide +kernel : ∀ t : Fin grid1.N, condFirst (grid1.coords t) ↔ t.val % 4 = 0)
theorem hcondLast : ∀ t : Fin cfg1.N, condLast (grid1.coords t) ↔ t.val % 4 = 3 :=
  (by decide +kernel : ∀ t : Fin grid1.N, condLast (grid1.coords t) ↔ t.val % 4 = 3)
theorem idle_out : ∀ t : Fin cfg1.N, ¬condLast (grid1.coords t) → cfg1.idle 4 (grid1.coords t) = true := by decide +kernel
theorem noFlush_out : ∀ t : Fin cfg1.N, ¬condLast (grid1.coords t) → (cfg1.win 4).flush t = false := by decide +kernel
theorem live_out : ∀ t : Fin cfg1.N, condLast (grid1.coords t) → cfg1.idle 4 (grid1.coords t) = false := by decide +kernel

abbrev accM : Memref sig .tc .vmem S1024x1024 .f32 := Memref.whole cc1_scratch0
abbrev loraM : Memref sig .tc .vmem S1024x16 .f32 := Memref.whole cc1_scratch1
/-- The buffers the body is called with at point t. -/
abbrev bufs (t : Fin cfg1.N) : Bufs :=
  ⟨win1_0.stage (cfg1.slots t 0), hstage1_0 ((cfg1.slots t 0).cast nbuf1_0), win1_1.stage (cfg1.slots t 1), hstage1_1 ((cfg1.slots t 1).cast nbuf1_1), win1_2.stage (cfg1.slots t 2), hstage1_2 ((cfg1.slots t 2).cast nbuf1_2), win1_3.stage (cfg1.slots t 3), hstage1_3 ((cfg1.slots t 3).cast nbuf1_3), win1_4.stage (cfg1.slots t 4), hstage1_4 ((cfg1.slots t 4).cast nbuf1_4), accM, Memref.isWhole_whole _, loraM, Memref.isWhole_whole _⟩

abbrev rest (c : Dev nD) : sProp 𝕄 :=
  Pipeline.scopedRestBut (Ix := Unit) (Name := ℕ) (U := UR sig nD τ) (Lvl := ℕ) (Val := Elt F) spec1 c [cc1_scratch0, cc1_scratch1]

theorem PhiA_eq (c : Dev nD) :
    (Pipeline.ΦA spec1 c : sProp 𝕄)
      = iprop(iprop(iprop((∃ d, owns (c : Thread nD τ) accM fullShare d) ∗ (∃ d, owns (c : Thread nD τ) loraM fullShare d)) ∗ rest c) ∗ (∃ r, prngReg c r)) := by
  unfold Pipeline.ΦA; rw [scopedRest1_split]; simp only [accM, loraM, owns_whole]; try rfl

/-- The accumulators after each point, over the blocks the three input windows hold there. -/
abbrev accsR (c : Dev nD) : (n : ℕ) → n < cfg1.N → Vec F S1024x1024 .f32 × Vec F S1024x16 .f32 :=
  accs (fun n hn => iblk V c 0 ⟨n, hn⟩) (fun n hn => iblk V c 1 ⟨n, hn⟩) (fun n hn => iblk V c 2 ⟨n, hn⟩)

/-- The invariant before position n: at the start nothing is known of the accumulators; afterwards each holds what the point before left. -/
def PhiS (c : Dev nD) : (n : ℕ) → n ≤ cfg1.N → sProp 𝕄
  | 0, _ => Pipeline.ΦA spec1 c
  | n + 1, hn => iprop(iprop(iprop(owns (c : Thread nD τ) accM fullShare (accsR V c n hn).1 ∗ owns (c : Thread nD τ) loraM fullShare (accsR V c n hn).2) ∗ rest c) ∗ (∃ r, prngReg c r))

theorem PhiS_succ (c : Dev nD) (n : ℕ) (hn : n < cfg1.N) :
    PhiS V c (n + 1) hn = iprop(iprop(iprop(owns (c : Thread nD τ) accM fullShare (accsR V c n hn).1 ∗ owns (c : Thread nD τ) loraM fullShare (accsR V c n hn).2) ∗ rest c) ∗ (∃ r, prngReg c r)) := rfl

theorem PhiS_pos (c : Dev nD) (n : ℕ) (h : n ≤ cfg1.N) (hz : n ≠ 0) :
    PhiS V c n h = iprop(iprop(iprop(owns (c : Thread nD τ) accM fullShare (accsR V c (n - 1) (by omega)).1 ∗ owns (c : Thread nD τ) loraM fullShare (accsR V c (n - 1) (by omega)).2) ∗ rest c) ∗ (∃ r, prngReg c r)) := by
  cases n with
  | zero => exact absurd rfl hz
  | succ n => rfl

/-- The proof data: the arrays as found; after the body each input's buffer at its block and the output's at the block formed from the accumulators. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay6 (iblk V c 3 t) (accsR V c t.val t.isLt).2 (accsR V c t.val t.isLt).1
  Φ t := PhiS V c t.val (Nat.le_of_lt_succ t.isLt)
  q _ := fullShare
  owed _ := 0

theorem before_x (c : Dev nD) (t : Fin cfg1.N) (d) : (dat V c).before 0 t d = iblk V c 0 t :=
  ((dat V c).before_in_eq_fetched 0 rfl (fun _ => rfl) (fun _ _ _ => rfl) (fun _ => rfl) t d).trans rfl
theorem before_w (c : Dev nD) (t : Fin cfg1.N) (d) : (dat V c).before 1 t d = iblk V c 1 t :=
  ((dat V c).before_in_eq_fetched 1 rfl (fun _ => rfl) (fun _ _ _ => rfl) (fun _ => rfl) t d).trans rfl
theorem before_a (c : Dev nD) (t : Fin cfg1.N) (d) : (dat V c).before 2 t d = iblk V c 2 t :=
  ((dat V c).before_in_eq_fetched 2 rfl (fun _ => rfl) (fun _ _ _ => rfl) (fun _ => rfl) t d).trans rfl
theorem before_b (c : Dev nD) (t : Fin cfg1.N) (d) : (dat V c).before 3 t d = iblk V c 3 t :=
  ((dat V c).before_in_eq_fetched 3 rfl (fun _ => rfl) (fun _ _ _ => rfl) (fun _ => rfl) t d).trans rfl
/-- The body meets its obligation at every point: the tile t mod 4 says which case runs. -/
theorem body_obligation (c : Dev nD) : BodyObligation (dat (F := F) V c) (defs₀ (F := F)) Variants.none () Set.univ := fun t => by
  rw [bigSep_W1, bigSep_W1]
  show _ ⊢ wp frame _ Set.univ (kernel (grid1.coords t) (bufs t)) (fun _ => iprop(_ ∗ _ ∗ _ ∗ _ ∗ _ ∗ _ ∗ (dat V c).leavesExact 4 t))
  simp only [before_x, before_w, before_a, before_b]
  rw [show (dat V c).Φ t.succ = PhiS V c (t.val + 1) t.isLt from rfl, show (dat V c).Φ t.castSucc = PhiS V c t.val (Nat.le_of_lt t.isLt) from rfl]
  rw [PhiS_succ]
  by_cases h0 : t.val % 4 = 0
  · have hnl : ¬condLast (grid1.coords t) := fun h => by have := (hcondLast t).mp h; omega
    rw [Dat.leavesExact_idle (dat V c) 4 t (idle_out t hnl) (noFlush_out t hnl), show accsR V c t.val t.isLt = _ from accs_first _ _ _ t.val t.isLt h0]
    by_cases hz : t.val = 0
    · rw [show PhiS V c t.val (Nat.le_of_lt t.isLt) = Pipeline.ΦA spec1 c from by obtain ⟨n, hn⟩ := t; subst hz; rfl, PhiA_eq]
      exact sound_first c (grid1.coords t) (bufs t) _ _ _ _ _ _ _ _ _ _ ((hcondFirst t).mpr h0) hnl .rfl .rfl
    · rw [PhiS_pos V c _ _ hz]
      exact sound_first c (grid1.coords t) (bufs t) _ _ _ _ _ _ _ _ _ _ ((hcondFirst t).mpr h0) hnl
        (by iintro H; iexists _; iexact H) (by iintro H; iexists _; iexact H)
  · have hz : t.val ≠ 0 := fun h => h0 (by rw [h])
    rw [PhiS_pos V c _ _ hz]
    by_cases h3 : t.val % 4 = 3
    · have hl : condLast (grid1.coords t) := (hcondLast t).mpr h3
      rw [show (dat V c).leavesExact 4 t = owns (c : Thread nD τ) (bufs t).o fullShare (k0_pay6 (iblk V c 3 t) (accsR V c t.val t.isLt).2 (accsR V c t.val t.isLt).1) from by
        unfold Dat.leavesExact; rw [live_out t hl]; rfl, show accsR V c t.val t.isLt = _ from accs_step _ _ _ t.val t.isLt h0]
      exact sound_last c (grid1.coords t) (bufs t) _ _ _ _ _ _ _ _ _ _ (fun h => h0 ((hcondFirst t).mp h)) hl
    · have hnl : ¬condLast (grid1.coords t) := fun h => h3 ((hcondLast t).mp h)
      rw [Dat.leavesExact_idle (dat V c) 4 t (idle_out t hnl) (noFlush_out t hnl), show accsR V c t.val t.isLt = _ from accs_step _ _ _ t.val t.isLt h0]
      exact sound_mid c (grid1.coords t) (bufs t) _ _ _ _ _ _ _ _ _ _ (fun h => h0 ((hcondFirst t).mp h)) hnl

/-- After any point but the first the invariant gives the launch's back, the accumulators' contents forgotten. -/
theorem hout (c : Dev nD) : (dat V c).Φ (Fin.last cfg1.N) ⊢ Pipeline.ΦA spec1 c := by
  rw [show (dat V c).Φ (Fin.last cfg1.N) = PhiS V c cfg1.N le_rfl from rfl, PhiS_pos V c _ _ (by have : cfg1.N = 128 := N_1; omega), PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.ProjK

end
-- ==== Proof.V.Region.lean ====
import proofs.«101342_j17368847745269_1_alg».proof.Proof.Body.Step

noncomputable section

namespace Cert.KernelIdeal.ProjV

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The reduction tile runs fastest: the point t is at tile t mod 4. -/
theorem hcondFirst : ∀ t : Fin cfg2.N, condFirst (grid2.coords t) ↔ t.val % 4 = 0 :=
  (by decide +kernel : ∀ t : Fin grid2.N, condFirst (grid2.coords t) ↔ t.val % 4 = 0)
theorem hcondLast : ∀ t : Fin cfg2.N, condLast (grid2.coords t) ↔ t.val % 4 = 3 :=
  (by decide +kernel : ∀ t : Fin grid2.N, condLast (grid2.coords t) ↔ t.val % 4 = 3)
theorem idle_out : ∀ t : Fin cfg2.N, ¬condLast (grid2.coords t) → cfg2.idle 4 (grid2.coords t) = true := by decide +kernel
theorem noFlush_out : ∀ t : Fin cfg2.N, ¬condLast (grid2.coords t) → (cfg2.win 4).flush t = false := by decide +kernel
theorem live_out : ∀ t : Fin cfg2.N, condLast (grid2.coords t) → cfg2.idle 4 (grid2.coords t) = false := by decide +kernel

abbrev accM : Memref sig .tc .vmem S1024x1024 .f32 := Memref.whole cc2_scratch0
abbrev loraM : Memref sig .tc .vmem S1024x16 .f32 := Memref.whole cc2_scratch1
/-- The buffers the body is called with at point t. -/
abbrev bufs (t : Fin cfg2.N) : Bufs :=
  ⟨win2_0.stage (cfg2.slots t 0), hstage2_0 ((cfg2.slots t 0).cast nbuf2_0), win2_1.stage (cfg2.slots t 1), hstage2_1 ((cfg2.slots t 1).cast nbuf2_1), win2_2.stage (cfg2.slots t 2), hstage2_2 ((cfg2.slots t 2).cast nbuf2_2), win2_3.stage (cfg2.slots t 3), hstage2_3 ((cfg2.slots t 3).cast nbuf2_3), win2_4.stage (cfg2.slots t 4), hstage2_4 ((cfg2.slots t 4).cast nbuf2_4), accM, Memref.isWhole_whole _, loraM, Memref.isWhole_whole _⟩

abbrev rest (c : Dev nD) : sProp 𝕄 :=
  Pipeline.scopedRestBut (Ix := Unit) (Name := ℕ) (U := UR sig nD τ) (Lvl := ℕ) (Val := Elt F) spec2 c [cc2_scratch0, cc2_scratch1]

theorem PhiA_eq (c : Dev nD) :
    (Pipeline.ΦA spec2 c : sProp 𝕄)
      = iprop(iprop(iprop((∃ d, owns (c : Thread nD τ) accM fullShare d) ∗ (∃ d, owns (c : Thread nD τ) loraM fullShare d)) ∗ rest c) ∗ (∃ r, prngReg c r)) := by
  unfold Pipeline.ΦA; rw [scopedRest2_split]; simp only [accM, loraM, owns_whole]; try rfl

/-- The accumulators after each point, over the blocks the three input windows hold there. -/
abbrev accsR (c : Dev nD) : (n : ℕ) → n < cfg2.N → Vec F S1024x1024 .f32 × Vec F S1024x16 .f32 :=
  accs (fun n hn => iblk V c 0 ⟨n, hn⟩) (fun n hn => iblk V c 1 ⟨n, hn⟩) (fun n hn => iblk V c 2 ⟨n, hn⟩)

/-- The invariant before position n: at the start nothing is known of the accumulators; afterwards each holds what the point before left. -/
def PhiS (c : Dev nD) : (n : ℕ) → n ≤ cfg2.N → sProp 𝕄
  | 0, _ => Pipeline.ΦA spec2 c
  | n + 1, hn => iprop(iprop(iprop(owns (c : Thread nD τ) accM fullShare (accsR V c n hn).1 ∗ owns (c : Thread nD τ) loraM fullShare (accsR V c n hn).2) ∗ rest c) ∗ (∃ r, prngReg c r))

theorem PhiS_succ (c : Dev nD) (n : ℕ) (hn : n < cfg2.N) :
    PhiS V c (n + 1) hn = iprop(iprop(iprop(owns (c : Thread nD τ) accM fullShare (accsR V c n hn).1 ∗ owns (c : Thread nD τ) loraM fullShare (accsR V c n hn).2) ∗ rest c) ∗ (∃ r, prngReg c r)) := rfl

theorem PhiS_pos (c : Dev nD) (n : ℕ) (h : n ≤ cfg2.N) (hz : n ≠ 0) :
    PhiS V c n h = iprop(iprop(iprop(owns (c : Thread nD τ) accM fullShare (accsR V c (n - 1) (by omega)).1 ∗ owns (c : Thread nD τ) loraM fullShare (accsR V c (n - 1) (by omega)).2) ∗ rest c) ∗ (∃ r, prngReg c r)) := by
  cases n with
  | zero => exact absurd rfl hz
  | succ n => rfl

/-- The proof data: the arrays as found; after the body each input's buffer at its block and the output's at the block formed from the accumulators. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay6 (iblk V c 3 t) (accsR V c t.val t.isLt).2 (accsR V c t.val t.isLt).1
  Φ t := PhiS V c t.val (Nat.le_of_lt_succ t.isLt)
  q _ := fullShare
  owed _ := 0

theorem before_x (c : Dev nD) (t : Fin cfg2.N) (d) : (dat V c).before 0 t d = iblk V c 0 t :=
  ((dat V c).before_in_eq_fetched 0 rfl (fun _ => rfl) (fun _ _ _ => rfl) (fun _ => rfl) t d).trans rfl
theorem before_w (c : Dev nD) (t : Fin cfg2.N) (d) : (dat V c).before 1 t d = iblk V c 1 t :=
  ((dat V c).before_in_eq_fetched 1 rfl (fun _ => rfl) (fun _ _ _ => rfl) (fun _ => rfl) t d).trans rfl
theorem before_a (c : Dev nD) (t : Fin cfg2.N) (d) : (dat V c).before 2 t d = iblk V c 2 t :=
  ((dat V c).before_in_eq_fetched 2 rfl (fun _ => rfl) (fun _ _ _ => rfl) (fun _ => rfl) t d).trans rfl
theorem before_b (c : Dev nD) (t : Fin cfg2.N) (d) : (dat V c).before 3 t d = iblk V c 3 t :=
  ((dat V c).before_in_eq_fetched 3 rfl (fun _ => rfl) (fun _ _ _ => rfl) (fun _ => rfl) t d).trans rfl
/-- The body meets its obligation at every point: the tile t mod 4 says which case runs. -/
theorem body_obligation (c : Dev nD) : BodyObligation (dat (F := F) V c) (defs₀ (F := F)) Variants.none () Set.univ := fun t => by
  rw [bigSep_W2, bigSep_W2]
  show _ ⊢ wp frame _ Set.univ (kernel (grid2.coords t) (bufs t)) (fun _ => iprop(_ ∗ _ ∗ _ ∗ _ ∗ _ ∗ _ ∗ (dat V c).leavesExact 4 t))
  simp only [before_x, before_w, before_a, before_b]
  rw [show (dat V c).Φ t.succ = PhiS V c (t.val + 1) t.isLt from rfl, show (dat V c).Φ t.castSucc = PhiS V c t.val (Nat.le_of_lt t.isLt) from rfl]
  rw [PhiS_succ]
  by_cases h0 : t.val % 4 = 0
  · have hnl : ¬condLast (grid2.coords t) := fun h => by have := (hcondLast t).mp h; omega
    rw [Dat.leavesExact_idle (dat V c) 4 t (idle_out t hnl) (noFlush_out t hnl), show accsR V c t.val t.isLt = _ from accs_first _ _ _ t.val t.isLt h0]
    by_cases hz : t.val = 0
    · rw [show PhiS V c t.val (Nat.le_of_lt t.isLt) = Pipeline.ΦA spec2 c from by obtain ⟨n, hn⟩ := t; subst hz; rfl, PhiA_eq]
      exact sound_first c (grid2.coords t) (bufs t) _ _ _ _ _ _ _ _ _ _ ((hcondFirst t).mpr h0) hnl .rfl .rfl
    · rw [PhiS_pos V c _ _ hz]
      exact sound_first c (grid2.coords t) (bufs t) _ _ _ _ _ _ _ _ _ _ ((hcondFirst t).mpr h0) hnl
        (by iintro H; iexists _; iexact H) (by iintro H; iexists _; iexact H)
  · have hz : t.val ≠ 0 := fun h => h0 (by rw [h])
    rw [PhiS_pos V c _ _ hz]
    by_cases h3 : t.val % 4 = 3
    · have hl : condLast (grid2.coords t) := (hcondLast t).mpr h3
      rw [show (dat V c).leavesExact 4 t = owns (c : Thread nD τ) (bufs t).o fullShare (k0_pay6 (iblk V c 3 t) (accsR V c t.val t.isLt).2 (accsR V c t.val t.isLt).1) from by
        unfold Dat.leavesExact; rw [live_out t hl]; rfl, show accsR V c t.val t.isLt = _ from accs_step _ _ _ t.val t.isLt h0]
      exact sound_last c (grid2.coords t) (bufs t) _ _ _ _ _ _ _ _ _ _ (fun h => h0 ((hcondFirst t).mp h)) hl
    · have hnl : ¬condLast (grid2.coords t) := fun h => h3 ((hcondLast t).mp h)
      rw [Dat.leavesExact_idle (dat V c) 4 t (idle_out t hnl) (noFlush_out t hnl), show accsR V c t.val t.isLt = _ from accs_step _ _ _ t.val t.isLt h0]
      exact sound_mid c (grid2.coords t) (bufs t) _ _ _ _ _ _ _ _ _ _ (fun h => h0 ((hcondFirst t).mp h)) hnl

/-- After any point but the first the invariant gives the launch's back, the accumulators' contents forgotten. -/
theorem hout (c : Dev nD) : (dat V c).Φ (Fin.last cfg2.N) ⊢ Pipeline.ΦA spec2 c := by
  rw [show (dat V c).Φ (Fin.last cfg2.N) = PhiS V c cfg2.N le_rfl from rfl, PhiS_pos V c _ _ (by have : cfg2.N = 128 := N_2; omega), PhiA_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end Cert.KernelIdeal.ProjV

end
-- ==== Proof.Main.lean ====
import proofs.«101342_j17368847745269_1_alg».proof.Proof.Q.Region
import proofs.«101342_j17368847745269_1_alg».proof.Proof.K.Region
import proofs.«101342_j17368847745269_1_alg».proof.Proof.V.Region
import proofs.«101342_j17368847745269_1_alg».proof.Proof.Gen.KernelIdeal.Regions
import Idealize.ShloMosaic.Lib.Pipeline.RegionsLoop

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev mem0 (c : Dev nD) : Valuation τ sig (Elt F) := fun b => m (c, b)

abbrev mem1 (c : Dev nD) : Valuation τ sig (Elt F) := StableHlo.after hostOps0 (mem0 m c)
abbrev at1 : (c : Dev nD) → (b : Ref sig .tc) → Buf (Elt F) ((c : Thread nD τ).loc b) := fun c b => mem1 m c b

def mem2 (c : Dev nD) : Valuation τ sig (Elt F) :=
  Pipeline.withArrays spec0 c (mem1 m c) fun w => (ProjQ.dat (at1 m) c).arrAt w cfg0.N
theorem mem2_arr (c : Dev nD) (w : Fin cfg0.W) :
    mem2 m c (Proc.devRef .tc (Pipeline.arrRef spec0 w)) = (ProjQ.dat (at1 m) c).arrAt w cfg0.N := by
  unfold mem2; exact Pipeline.withArrays_arr spec0 launch0.win.arr_inj c _ _ w
theorem mem2_of_ne (c : Dev nD) (b : Ref sig .tc) (hb : ∀ w, Pipeline.arrRef spec0 w ≠ b) :
    mem2 m c (Proc.devRef .tc b) = mem1 m c (Proc.devRef .tc b) := by
  unfold mem2; exact Pipeline.withArrays_of_ne spec0 c _ _ b hb

abbrev at2 : (c : Dev nD) → (b : Ref sig .tc) → Buf (Elt F) ((c : Thread nD τ).loc b) := fun c b => mem2 m c b
theorem exitArr2 (c : Dev nD) (w : Fin cfg0.W) : (ProjQ.dat (at1 m) c).arrAt w cfg0.N = at2 m c (Pipeline.arrRef spec0 w) :=
  (mem2_arr m c w).symm
theorem exitRest2 (c : Dev nD) : ∀ b, b ∉ Finset.univ.image (Pipeline.arrRef spec0) → at2 m c b = at1 m c b :=
  fun b hb => mem2_of_ne m c b fun w e => hb (Finset.mem_image.mpr ⟨w, Finset.mem_univ _, e⟩)

def mem3 (c : Dev nD) : Valuation τ sig (Elt F) :=
  Pipeline.withArrays spec1 c (mem2 m c) fun w => (ProjK.dat (at2 m) c).arrAt w cfg1.N
theorem mem3_arr (c : Dev nD) (w : Fin cfg1.W) :
    mem3 m c (Proc.devRef .tc (Pipeline.arrRef spec1 w)) = (ProjK.dat (at2 m) c).arrAt w cfg1.N := by
  unfold mem3; exact Pipeline.withArrays_arr spec1 launch1.win.arr_inj c _ _ w
theorem mem3_of_ne (c : Dev nD) (b : Ref sig .tc) (hb : ∀ w, Pipeline.arrRef spec1 w ≠ b) :
    mem3 m c (Proc.devRef .tc b) = mem2 m c (Proc.devRef .tc b) := by
  unfold mem3; exact Pipeline.withArrays_of_ne spec1 c _ _ b hb

abbrev at3 : (c : Dev nD) → (b : Ref sig .tc) → Buf (Elt F) ((c : Thread nD τ).loc b) := fun c b => mem3 m c b
theorem exitArr3 (c : Dev nD) (w : Fin cfg1.W) : (ProjK.dat (at2 m) c).arrAt w cfg1.N = at3 m c (Pipeline.arrRef spec1 w) :=
  (mem3_arr m c w).symm
theorem exitRest3 (c : Dev nD) : ∀ b, b ∉ Finset.univ.image (Pipeline.arrRef spec1) → at3 m c b = at2 m c b :=
  fun b hb => mem3_of_ne m c b fun w e => hb (Finset.mem_image.mpr ⟨w, Finset.mem_univ _, e⟩)

def mem4 (c : Dev nD) : Valuation τ sig (Elt F) :=
  Pipeline.withArrays spec2 c (mem3 m c) fun w => (ProjV.dat (at3 m) c).arrAt w cfg2.N
theorem mem4_arr (c : Dev nD) (w : Fin cfg2.W) :
    mem4 m c (Proc.devRef .tc (Pipeline.arrRef spec2 w)) = (ProjV.dat (at3 m) c).arrAt w cfg2.N := by
  unfold mem4; exact Pipeline.withArrays_arr spec2 launch2.win.arr_inj c _ _ w
theorem mem4_of_ne (c : Dev nD) (b : Ref sig .tc) (hb : ∀ w, Pipeline.arrRef spec2 w ≠ b) :
    mem4 m c (Proc.devRef .tc b) = mem3 m c (Proc.devRef .tc b) := by
  unfold mem4; exact Pipeline.withArrays_of_ne spec2 c _ _ b hb

abbrev at4 : (c : Dev nD) → (b : Ref sig .tc) → Buf (Elt F) ((c : Thread nD τ).loc b) := fun c b => mem4 m c b
theorem exitArr4 (c : Dev nD) (w : Fin cfg2.W) : (ProjV.dat (at3 m) c).arrAt w cfg2.N = at4 m c (Pipeline.arrRef spec2 w) :=
  (mem4_arr m c w).symm
theorem exitRest4 (c : Dev nD) : ∀ b, b ∉ Finset.univ.image (Pipeline.arrRef spec2) → at4 m c b = at3 m c b :=
  fun b hb => mem4_of_ne m c b fun w e => hb (Finset.mem_image.mpr ⟨w, Finset.mem_univ _, e⟩)

abbrev mem5 (c : Dev nD) : Valuation τ sig (Elt F) := StableHlo.after hostOps3 (mem4 m c)

theorem mem1_of (c : Dev nD) (r : Ref sig .tc) (h : r ∉ hostOps0_W) : mem1 m c r = mem0 m c r :=
  StableHlo.after_of_writes_sub hostOps0 _ hostOps0_writes h
theorem mem5_of (c : Dev nD) (r : Ref sig .tc) (h : r ∉ hostOps3_W) : mem5 m c r = mem4 m c r :=
  StableHlo.after_of_writes_sub hostOps3 _ hostOps3_writes h

/-- No item writes an argument: a reference that neither host stretch writes and that is no region's array ends as launched. -/
theorem kept (c : Dev nD) (r : Ref sig .tc) (h5 : r ∉ hostOps3_W) (h4 : ∀ w, Pipeline.arrRef spec2 w ≠ r) (h3 : ∀ w, Pipeline.arrRef spec1 w ≠ r)
    (h2 : ∀ w, Pipeline.arrRef spec0 w ≠ r) (h1 : r ∉ hostOps0_W) : mem5 m c (Proc.devRef .tc r) = m ((c : Thread nD τ).loc r) :=
  (mem5_of m c r h5).trans <| (mem4_of_ne m c r h4).trans <| (mem3_of_ne m c r h3).trans <| (mem2_of_ne m c r h2).trans <| (mem1_of m c r h1).trans rfl

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => ProjQ.dat (at1 m) c
  | ⟨1, _⟩ => fun c => ProjK.dat (at2 m) c
  | ⟨2, _⟩ => fun c => ProjV.dat (at3 m) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (mem5 m c) ∗ ∃ r, prngReg c r)

set_option backward.isDefEq.respectTransparency.types false in

def regQ : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (ProjQ.body_obligation (at1 m) c).loose
  hwaits := Pipeline.hwaits_of_owed_zero _ _ _ _ L lv 0 fun _ _ => rfl
  pre c := iprop(StableHlo.held (c : Thread nD τ) (Pipeline.ucRefs τ sig) (mem1 m c) ∗ R c)
  post c := iprop(StableHlo.held (c : Thread nD τ) (Pipeline.ucRefs τ sig) (mem2 m c) ∗ R c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have hgive : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    exact (ProjQ.hout (at1 m) c).trans hgive
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at1 m c) (at2 m c) ((pdats m 0 c).arrAt · cfg0.N) (exitArr2 m c) (exitRest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regK : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (ProjK.body_obligation (at2 m) c).loose
  hwaits := Pipeline.hwaits_of_owed_zero _ _ _ _ L lv 1 fun _ _ => rfl
  pre c := iprop(StableHlo.held (c : Thread nD τ) (Pipeline.ucRefs τ sig) (mem2 m c) ∗ R c)
  post c := iprop(StableHlo.held (c : Thread nD τ) (Pipeline.ucRefs τ sig) (mem3 m c) ∗ R c)
  X c := iprop(∃ r, prngReg c r)
  Y c := iprop(∃ r, prngReg c r)
  Z c := Pipeline.unscopedRest (Ix := Unit) (Name := ℕ) (U := UR sig nD τ) (Lvl := ℕ) spec1 c (at2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have hgive : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (ProjK.hout (at2 m) c).trans hgive
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at2 m c) (at3 m c) ((pdats m 1 c).arrAt · cfg1.N) (exitArr3 m c) (exitRest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def regV : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (ProjV.body_obligation (at3 m) c).loose
  hwaits := Pipeline.hwaits_of_owed_zero _ _ _ _ L lv 2 fun _ _ => rfl
  pre c := iprop(StableHlo.held (c : Thread nD τ) (Pipeline.ucRefs τ sig) (mem3 m c) ∗ R c)
  post c := iprop(StableHlo.held (c : Thread nD τ) (Pipeline.ucRefs τ sig) (mem4 m c) ∗ R c)
  X c := iprop(∃ r, prngReg c r)
  Y c := iprop(∃ r, prngReg c r)
  Z c := Pipeline.unscopedRest (Ix := Unit) (Name := ℕ) (U := UR sig nD τ) (Lvl := ℕ) spec2 c (at3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (at3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have hgive : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (ProjV.hout (at3 m) c).trans hgive
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at3 m c) (at4 m c) ((pdats m 2 c).arrAt · cfg2.N) (exitArr4 m c) (exitRest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (mem0 m)),
    .region (regQ m),
    .region (regK m),
    .region (regV m),
    .host (hseg hostOps3 hostOps3_sub hostOps3_fresh (mem4 m)) ]
theorem main_run (c : Dev nD) : main (F := F) c = Pipeline.Seg.run (segs m) := (main_chain c).trans (by chain_rfl)

set_option backward.isDefEq.respectTransparency.types false in

theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = mem5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ R c)) (Tₙ := Tₙ m)
    (hch := ⟨fun _ => .rfl, fun _ => .rfl, fun _ => .rfl, fun _ => .rfl, fun _ => .rfl,
      fun c => by
        show iprop(StableHlo.held (c : Thread nD τ) (Pipeline.ucRefs τ sig) (mem5 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (mem0 m c)
        from Pipeline.unscopedBufs_held c (mem0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = mem5 m c b)
    (hfin := fun c s' => by
      iintro ⟨⟨Hh, -⟩, HSI⟩
      unfold StableHlo.held
      imodintro
      iapply (pointsTo_read_all (Pipeline.ucRefs τ sig) (fun b => (((c : Thread nD τ)).1, b)) (mem5 m c) s')
      isplitl [Hh] <;> iassumption)
    (hQ := fun s h c => h c)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run again, with what it says of the arguments spelled out: each ends as launched. -/
theorem run_args (ρ : Dev nD → PrngReg) : θ_run defs (onTc (τ := τ) (main (F := F))) ⟨m, fun _ => 0, ρ⟩ (fun r => ∀ c : Dev nD,
      (∀ b ∈ Pipeline.ucRefs τ sig, r.2.mem (((c : Thread nD τ)).1, b) = mem5 m c b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c,
    (h c _ (mem_uc main_arg0 (by decide))).trans (kept m c main_arg0 (by decide) (by decide) (by decide) (by decide) (by decide)),
    (h c _ (mem_uc main_arg1 (by decide))).trans (kept m c main_arg1 (by decide) (by decide) (by decide) (by decide) (by decide)),
    (h c _ (mem_uc main_arg2 (by decide))).trans (kept m c main_arg2 (by decide) (by decide) (by decide) (by decide) (by decide)),
    (h c _ (mem_uc main_arg3 (by decide))).trans (kept m c main_arg3 (by decide) (by decide) (by decide) (by decide) (by decide)),
    (h c _ (mem_uc main_arg4 (by decide))).trans (kept m c main_arg4 (by decide) (by decide) (by decide) (by decide) (by decide)),
    (h c _ (mem_uc main_arg5 (by decide))).trans (kept m c main_arg5 (by decide) (by decide) (by decide) (by decide) (by decide)),
    (h c _ (mem_uc main_arg6 (by decide))).trans (kept m c main_arg6 (by decide) (by decide) (by decide) (by decide) (by decide)),
    (h c _ (mem_uc main_arg7 (by decide))).trans (kept m c main_arg7 (by decide) (by decide) (by decide) (by decide) (by decide)),
    (h c _ (mem_uc main_arg8 (by decide))).trans (kept m c main_arg8 (by decide) (by decide) (by decide) (by decide) (by decide)),
    (h c _ (mem_uc main_arg9 (by decide))).trans (kept m c main_arg9 (by decide) (by decide) (by decide) (by decide) (by decide))⟩) (run_main m ρ)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_args m ρ)

end Cert.KernelIdeal.Whole

end
-- ==== Proof.Spec.lean ====
import Idealize.ShloMosaic.PureOps.Ideal
import Idealize.ShloMosaic.Lib.ValueIdx
import Mathlib.Algebra.BigOperators.Fin
import Mathlib.Logic.Equiv.Fin.Basic

noncomputable section

open scoped BigOperators

namespace Cert.LoraSpec

open Idealize.ShloMosaic Idealize.ShloMosaic.ValueIdx

abbrev Rows : Shape := ⟨2, ![8192, 4096]⟩
abbrev Wt : Shape := ⟨2, ![4096, 4096]⟩
abbrev Dn : Shape := ⟨2, ![16, 4096]⟩
abbrev Up : Shape := ⟨2, ![4096, 16]⟩

def two : EReal := Ideal.ofBits .f32 0x40000000#32

def tcol (k : Fin 4) (h : Fin 1024) : Fin 4096 := ⟨1024 * k.val + h.val, by omega⟩

/-- Reduction tile k's share of the dot product of row p of x with row q of w. -/
def tileDot {n0 n1 : ℕ} (x : (⟨2, ![n0, 4096]⟩ : Shape).Idx → EReal) (w : (⟨2, ![n1, 4096]⟩ : Shape).Idx → EReal)
    (p : Fin n0) (q : Fin n1) (k : Fin 4) : EReal :=
  ∑ h : Fin 1024, x (ix2 p (tcol k h)) * w (ix2 q (tcol k h))

/-- Shares of tiles 0, …, k added one at a time, starting from tile 0's. -/
def accAfter (d : Fin 4 → EReal) : ℕ → EReal
  | 0 => d 0
  | k + 1 => accAfter d k + d ⟨(k + 1) % 4, Nat.mod_lt _ (by norm_num)⟩

/-- The tiled evaluation of x wᵀ + 2 (x aᵀ) bᵀ at row p, column q. -/
def outAt (x : Rows.Idx → EReal) (w : Wt.Idx → EReal) (a : Dn.Idx → EReal) (b : Up.Idx → EReal) (p : Fin 8192) (q : Fin 4096) : EReal :=
  accAfter (tileDot x w p q) 3 + two * ∑ r : Fin 16, accAfter (tileDot x a p r) 3 * b (ix2 q r)

def tiled (x : Rows.Idx → EReal) (w : Wt.Idx → EReal) (a : Dn.Idx → EReal) (b : Up.Idx → EReal) : Rows.Idx → EReal :=
  fun j => outAt x w a b (j 0) (j 1)

def wholeAt (x : Rows.Idx → EReal) (w : Wt.Idx → EReal) (a : Dn.Idx → EReal) (b : Up.Idx → EReal) (p : Fin 8192) (q : Fin 4096) : EReal :=
  (∑ h : Fin 4096, x (ix2 p h) * w (ix2 q h)) + two * ∑ r : Fin 16, (∑ h : Fin 4096, x (ix2 p h) * a (ix2 r h)) * b (ix2 q r)

theorem accAfter_three (d : Fin 4 → EReal) : accAfter d 3 = ∑ k : Fin 4, d k := by
  rw [Fin.sum_univ_four]
  rfl

/-- Summing tile by tile is summing over all columns: only commutativity and associativity of the addition are used. -/
theorem sum_tiles {M : Type*} [AddCommMonoid M] (f : Fin 4096 → M) :
    ∑ k : Fin 4, ∑ h : Fin 1024, f (tcol k h) = ∑ h : Fin 4096, f h := by
  rw [← Fintype.sum_prod_type']
  refine Fintype.sum_equiv (finProdFinEquiv (m := 4) (n := 1024)) _ _ ?_
  rintro ⟨k, h⟩
  refine congrArg f (Fin.ext ?_)
  show 1024 * k.val + h.val = h.val + 1024 * k.val
  omega

theorem accAfter_tileDot {n0 n1 : ℕ} (x : (⟨2, ![n0, 4096]⟩ : Shape).Idx → EReal) (w : (⟨2, ![n1, 4096]⟩ : Shape).Idx → EReal)
    (p : Fin n0) (q : Fin n1) : accAfter (tileDot x w p q) 3 = ∑ h : Fin 4096, x (ix2 p h) * w (ix2 q h) := by
  rw [accAfter_three]
  exact sum_tiles fun h => x (ix2 p h) * w (ix2 q h)

/-- The tiled evaluation is the projection itself, whatever the entries. -/
theorem outAt_eq_wholeAt (x : Rows.Idx → EReal) (w : Wt.Idx → EReal) (a : Dn.Idx → EReal) (b : Up.Idx → EReal) (p : Fin 8192) (q : Fin 4096) :
    outAt x w a b p q = wholeAt x w a b p q := by
  unfold outAt wholeAt
  rw [accAfter_tileDot]
  congr 2
  exact Finset.sum_congr rfl fun r _ => by rw [accAfter_tileDot]

end Cert.LoraSpec

end
-- ==== Proof.Body.PayloadAt.lean ====
import proofs.«101342_j17368847745269_1_alg».proof.Proof.Gen.KernelIdeal.Skeleton
import proofs.«101342_j17368847745269_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen
open Idealize.ShloMosaic Idealize.ShloMosaic.ValueIdx

theorem lhs_acc_0 (i : S1024x1024.Idx) (c : dot_S1024x1024_S1024x1024_S1024x1024_1_1_0_0_n_n.contr.Idx) :
    (dot_S1024x1024_S1024x1024_S1024x1024_1_1_0_0_n_n.lhsIdx i c 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_acc_1 (i : S1024x1024.Idx) (c : dot_S1024x1024_S1024x1024_S1024x1024_1_1_0_0_n_n.contr.Idx) :
    (dot_S1024x1024_S1024x1024_S1024x1024_1_1_0_0_n_n.lhsIdx i c 1).val = (c ⟨0, by decide⟩).val :=
  dot_S1024x1024_S1024x1024_S1024x1024_1_1_0_0_n_n.lhsIdx_val_of_single rfl i c
theorem rhs_acc_0 (i : S1024x1024.Idx) (c : dot_S1024x1024_S1024x1024_S1024x1024_1_1_0_0_n_n.contr.Idx) :
    (dot_S1024x1024_S1024x1024_S1024x1024_1_1_0_0_n_n.rhsIdx i c 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_acc_1 (i : S1024x1024.Idx) (c : dot_S1024x1024_S1024x1024_S1024x1024_1_1_0_0_n_n.contr.Idx) :
    (dot_S1024x1024_S1024x1024_S1024x1024_1_1_0_0_n_n.rhsIdx i c 1).val = (c ⟨0, by decide⟩).val :=
  dot_S1024x1024_S1024x1024_S1024x1024_1_1_0_0_n_n.rhsIdx_val_of_single rfl i c

theorem matmul_acc_apply (a : FVec Ideal S1024x1024 .bf16) (b : FVec Ideal S1024x1024 .bf16) (p : Fin 1024) (q : Fin 1024) :
    matmul dot_S1024x1024_S1024x1024_S1024x1024_1_1_0_0_n_n none a b (constant (F := Ideal) S1024x1024 .f32 0x00000000#32) (ix2 p q)
      = ∑ h : Fin 1024, a (ix2 p h) * b (ix2 q h) := by
  refine (Ideal.matmul_constant_zero_apply dot_S1024x1024_S1024x1024_S1024x1024_1_1_0_0_n_n none a b (ix2 p q)).trans ?_
  rw [← Equiv.sum_comp (contrEquiv1 dot_S1024x1024_S1024x1024_S1024x1024_1_1_0_0_n_n 1024 rfl rfl).symm]
  refine Finset.sum_congr rfl fun h _ => ?_
  have hh := contrEquiv1_symm_val dot_S1024x1024_S1024x1024_S1024x1024_1_1_0_0_n_n 1024 rfl rfl h
  have el : dot_S1024x1024_S1024x1024_S1024x1024_1_1_0_0_n_n.lhsIdx (ix2 p q) ((contrEquiv1 dot_S1024x1024_S1024x1024_S1024x1024_1_1_0_0_n_n 1024 rfl rfl).symm h) = ix2 p h := funext fun d => Fin.ext (by
    match d with
    | ⟨0, _⟩ => exact lhs_acc_0 _ _
    | ⟨1, _⟩ => exact (lhs_acc_1 _ _).trans hh)
  have er : dot_S1024x1024_S1024x1024_S1024x1024_1_1_0_0_n_n.rhsIdx (ix2 p q) ((contrEquiv1 dot_S1024x1024_S1024x1024_S1024x1024_1_1_0_0_n_n 1024 rfl rfl).symm h) = ix2 q h := funext fun d => Fin.ext (by
    match d with
    | ⟨0, _⟩ => exact rhs_acc_0 _ _
    | ⟨1, _⟩ => exact (rhs_acc_1 _ _).trans hh)
  rw [el, er]

theorem lhs_lora_0 (i : S1024x16.Idx) (c : dot_S1024x1024_S16x1024_S1024x16_1_1_0_0_n_n.contr.Idx) :
    (dot_S1024x1024_S16x1024_S1024x16_1_1_0_0_n_n.lhsIdx i c 0).val = (i 0).val := by
  unfold DotDims.lhsIdx
  rw [dif_neg (show ¬(0 : Fin S1024x1024.rank) ∈ dot_S1024x1024_S16x1024_S1024x16_1_1_0_0_n_n.lhsBatch by decide), dif_pos (show (0 : Fin S1024x1024.rank) ∈ dot_S1024x1024_S16x1024_S1024x16_1_1_0_0_n_n.lhsNonContracting by decide)]
  rfl
theorem lhs_lora_1 (i : S1024x16.Idx) (c : dot_S1024x1024_S16x1024_S1024x16_1_1_0_0_n_n.contr.Idx) :
    (dot_S1024x1024_S16x1024_S1024x16_1_1_0_0_n_n.lhsIdx i c 1).val = (c ⟨0, by decide⟩).val :=
  dot_S1024x1024_S16x1024_S1024x16_1_1_0_0_n_n.lhsIdx_val_of_single rfl i c
theorem rhs_lora_0 (i : S1024x16.Idx) (c : dot_S1024x1024_S16x1024_S1024x16_1_1_0_0_n_n.contr.Idx) :
    (dot_S1024x1024_S16x1024_S1024x16_1_1_0_0_n_n.rhsIdx i c 0).val = (i 1).val := by
  unfold DotDims.rhsIdx
  rw [dif_neg (show ¬(0 : Fin S16x1024.rank) ∈ dot_S1024x1024_S16x1024_S1024x16_1_1_0_0_n_n.rhsBatch by decide), dif_pos (show (0 : Fin S16x1024.rank) ∈ dot_S1024x1024_S16x1024_S1024x16_1_1_0_0_n_n.rhsNonContracting by decide)]
  rfl
theorem rhs_lora_1 (i : S1024x16.Idx) (c : dot_S1024x1024_S16x1024_S1024x16_1_1_0_0_n_n.contr.Idx) :
    (dot_S1024x1024_S16x1024_S1024x16_1_1_0_0_n_n.rhsIdx i c 1).val = (c ⟨0, by decide⟩).val :=
  dot_S1024x1024_S16x1024_S1024x16_1_1_0_0_n_n.rhsIdx_val_of_single rfl i c

theorem matmul_lora_apply (a : FVec Ideal S1024x1024 .bf16) (b : FVec Ideal S16x1024 .bf16) (p : Fin 1024) (q : Fin 16) :
    matmul dot_S1024x1024_S16x1024_S1024x16_1_1_0_0_n_n none a b (constant (F := Ideal) S1024x16 .f32 0x00000000#32) (ix2 p q)
      = ∑ h : Fin 1024, a (ix2 p h) * b (ix2 q h) := by
  refine (Ideal.matmul_constant_zero_apply dot_S1024x1024_S16x1024_S1024x16_1_1_0_0_n_n none a b (ix2 p q)).trans ?_
  rw [← Equiv.sum_comp (contrEquiv1 dot_S1024x1024_S16x1024_S1024x16_1_1_0_0_n_n 1024 rfl rfl).symm]
  refine Finset.sum_congr rfl fun h _ => ?_
  have hh := contrEquiv1_symm_val dot_S1024x1024_S16x1024_S1024x16_1_1_0_0_n_n 1024 rfl rfl h
  have el : dot_S1024x1024_S16x1024_S1024x16_1_1_0_0_n_n.lhsIdx (ix2 p q) ((contrEquiv1 dot_S1024x1024_S16x1024_S1024x16_1_1_0_0_n_n 1024 rfl rfl).symm h) = ix2 p h := funext fun d => Fin.ext (by
    match d with
    | ⟨0, _⟩ => exact lhs_lora_0 _ _
    | ⟨1, _⟩ => exact (lhs_lora_1 _ _).trans hh)
  have er : dot_S1024x1024_S16x1024_S1024x16_1_1_0_0_n_n.rhsIdx (ix2 p q) ((contrEquiv1 dot_S1024x1024_S16x1024_S1024x16_1_1_0_0_n_n 1024 rfl rfl).symm h) = ix2 q h := funext fun d => Fin.ext (by
    match d with
    | ⟨0, _⟩ => exact rhs_lora_0 _ _
    | ⟨1, _⟩ => exact (rhs_lora_1 _ _).trans hh)
  rw [el, er]

theorem lhs_out_0 (i : S1024x1024.Idx) (c : dot_S1024x16_S1024x16_S1024x1024_1_1_0_0_n_n.contr.Idx) :
    (dot_S1024x16_S1024x16_S1024x1024_1_1_0_0_n_n.lhsIdx i c 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lhs_out_1 (i : S1024x1024.Idx) (c : dot_S1024x16_S1024x16_S1024x1024_1_1_0_0_n_n.contr.Idx) :
    (dot_S1024x16_S1024x16_S1024x1024_1_1_0_0_n_n.lhsIdx i c 1).val = (c ⟨0, by decide⟩).val :=
  dot_S1024x16_S1024x16_S1024x1024_1_1_0_0_n_n.lhsIdx_val_of_single rfl i c
theorem rhs_out_0 (i : S1024x1024.Idx) (c : dot_S1024x16_S1024x16_S1024x1024_1_1_0_0_n_n.contr.Idx) :
    (dot_S1024x16_S1024x16_S1024x1024_1_1_0_0_n_n.rhsIdx i c 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rhs_out_1 (i : S1024x1024.Idx) (c : dot_S1024x16_S1024x16_S1024x1024_1_1_0_0_n_n.contr.Idx) :
    (dot_S1024x16_S1024x16_S1024x1024_1_1_0_0_n_n.rhsIdx i c 1).val = (c ⟨0, by decide⟩).val :=
  dot_S1024x16_S1024x16_S1024x1024_1_1_0_0_n_n.rhsIdx_val_of_single rfl i c

theorem matmul_out_apply (a : FVec Ideal S1024x16 .bf16) (b : FVec Ideal S1024x16 .bf16) (p : Fin 1024) (q : Fin 1024) :
    matmul dot_S1024x16_S1024x16_S1024x1024_1_1_0_0_n_n none a b (constant (F := Ideal) S1024x1024 .f32 0x00000000#32) (ix2 p q)
      = ∑ h : Fin 16, a (ix2 p h) * b (ix2 q h) := by
  refine (Ideal.matmul_constant_zero_apply dot_S1024x16_S1024x16_S1024x1024_1_1_0_0_n_n none a b (ix2 p q)).trans ?_
  rw [← Equiv.sum_comp (contrEquiv1 dot_S1024x16_S1024x16_S1024x1024_1_1_0_0_n_n 16 rfl rfl).symm]
  refine Finset.sum_congr rfl fun h _ => ?_
  have hh := contrEquiv1_symm_val dot_S1024x16_S1024x16_S1024x1024_1_1_0_0_n_n 16 rfl rfl h
  have el : dot_S1024x16_S1024x16_S1024x1024_1_1_0_0_n_n.lhsIdx (ix2 p q) ((contrEquiv1 dot_S1024x16_S1024x16_S1024x1024_1_1_0_0_n_n 16 rfl rfl).symm h) = ix2 p h := funext fun d => Fin.ext (by
    match d with
    | ⟨0, _⟩ => exact lhs_out_0 _ _
    | ⟨1, _⟩ => exact (lhs_out_1 _ _).trans hh)
  have er : dot_S1024x16_S1024x16_S1024x1024_1_1_0_0_n_n.rhsIdx (ix2 p q) ((contrEquiv1 dot_S1024x16_S1024x16_S1024x1024_1_1_0_0_n_n 16 rfl rfl).symm h) = ix2 q h := funext fun d => Fin.ext (by
    match d with
    | ⟨0, _⟩ => exact rhs_out_0 _ _
    | ⟨1, _⟩ => exact (rhs_out_1 _ _).trans hh)
  rw [el, er]

theorem pay_zero_acc (j : S1024x1024.Idx) : (k0_pay1 (F := Ideal)) j = 0 := by
  unfold k0_pay1
  refine (congrFun (shapeCast_self _ _) j).trans ?_
  exact Ideal.ofBits_zero_f32
theorem pay_zero_lora (j : S1024x16.Idx) : (k0_pay2 (F := Ideal)) j = 0 := by
  unfold k0_pay2
  refine (congrFun (shapeCast_self _ _) j).trans ?_
  exact Ideal.ofBits_zero_f32

theorem pay3_eq (x0 : Vec Ideal S1024x1024 .bf16) : k0_pay3 x0 = x0 := by
  unfold k0_pay3
  exact shapeCast_self _ _

theorem pay_acc_apply (x0 : Vec Ideal S1024x1024 .bf16) (x1 : Vec Ideal S1024x1024 .bf16) (s : Vec Ideal S1024x1024 .f32) (p q : Fin 1024) :
    k0_pay4 x0 x1 s (ix2 p q) = s (ix2 p q) + ∑ h : Fin 1024, x0 (ix2 p h) * x1 (ix2 q h) := by
  unfold k0_pay4
  refine (congrFun (shapeCast_self _ _) (ix2 p q)).trans ?_
  refine (addf_apply _ _ _).trans ?_
  refine congrArg (s (ix2 p q) + ·) ?_
  rw [pay3_eq, shapeCast_self]
  exact matmul_acc_apply x0 x1 p q

theorem pay_lora_apply (x0 : Vec Ideal S1024x1024 .bf16) (x2 : Vec Ideal S16x1024 .bf16) (s : Vec Ideal S1024x16 .f32) (p : Fin 1024) (r : Fin 16) :
    k0_pay5 x0 x2 s (ix2 p r) = s (ix2 p r) + ∑ h : Fin 1024, x0 (ix2 p h) * x2 (ix2 r h) := by
  unfold k0_pay5
  refine (congrFun (shapeCast_self _ _) (ix2 p r)).trans ?_
  refine (addf_apply _ _ _).trans ?_
  refine congrArg (s (ix2 p r) + ·) ?_
  rw [pay3_eq, shapeCast_self]
  exact matmul_lora_apply x0 x2 p r

theorem pay_out_apply (x3 : Vec Ideal S1024x16 .bf16) (l : Vec Ideal S1024x16 .f32) (a : Vec Ideal S1024x1024 .f32) (p q : Fin 1024) :
    k0_pay6 x3 l a (ix2 p q) = a (ix2 p q) + LoraSpec.two * ∑ r : Fin 16, l (ix2 p r) * x3 (ix2 q r) := by
  unfold k0_pay6 LoraSpec.two
  refine (addf_apply _ _ _).trans ?_
  refine congrArg (a (ix2 p q) + ·) ?_
  refine (mulf_apply _ _ _).trans ?_
  refine congrArg (Ideal.ofBits .f32 0x40000000#32 * ·) ?_
  rw [shapeCast_self]
  exact matmul_out_apply (truncf .bf16 l bitsLt_bf16_f32) x3 p q

end Cert.KernelIdeal.Body

end
-- ==== Proof.Body.Tiled.lean ====
import proofs.«101342_j17368847745269_1_alg».proof.Proof.Body.Step
import proofs.«101342_j17368847745269_1_alg».proof.Proof.Body.PayloadAt

noncomputable section

open scoped BigOperators

namespace Cert.KernelIdeal.Body

open Cert.KernelIdeal Cert.KernelIdeal.Gen
open Idealize.ShloMosaic Idealize.ShloMosaic.ValueIdx

/-- Point n works on row tile n / 16, column tile (n / 4) mod 4 and reduction tile n mod 4. -/
def rowAt (n : ℕ) (p : Fin 1024) : Fin 8192 := ⟨1024 * (n / 16 % 8) + p.val, by omega⟩
def colAt (n : ℕ) (q : Fin 1024) : Fin 4096 := ⟨1024 * (n / 4 % 4) + q.val, by omega⟩
def tileAt (n : ℕ) : Fin 4 := ⟨n % 4, Nat.mod_lt _ (by norm_num)⟩

theorem accAfter_at_first (d : Fin 4 → EReal) (n : ℕ) (h0 : n % 4 = 0) : LoraSpec.accAfter d (n % 4) = d (tileAt n) := by
  rw [h0]
  exact congrArg d (Fin.ext (by show (0 : ℕ) = n % 4; omega))

theorem accAfter_at_step (d : Fin 4 → EReal) (n : ℕ) (h0 : ¬n % 4 = 0) :
    LoraSpec.accAfter d (n % 4) = LoraSpec.accAfter d ((n - 1) % 4) + d (tileAt n) := by
  obtain ⟨j, hj⟩ : ∃ j, n % 4 = j + 1 := ⟨n % 4 - 1, by omega⟩
  rw [hj, show (n - 1) % 4 = j by omega]
  exact congrArg (fun u => LoraSpec.accAfter d j + d u) (Fin.ext (by show (j + 1) % 4 = n % 4; omega))

variable {N : ℕ} (X : Vec Ideal S8192x4096 .bf16) (W : Vec Ideal S4096x4096 .bf16) (A : Vec Ideal S16x4096 .bf16) (Bm : Vec Ideal S4096x16 .bf16)
  (xb wb : (n : ℕ) → n < N → Vec Ideal S1024x1024 .bf16) (ab : (n : ℕ) → n < N → Vec Ideal S16x1024 .bf16) (bb : (n : ℕ) → n < N → Vec Ideal S1024x16 .bf16)
  (hx : ∀ n hn p h, xb n hn (ix2 p h) = X (ix2 (rowAt n p) (LoraSpec.tcol (tileAt n) h)))
  (hw : ∀ n hn q h, wb n hn (ix2 q h) = W (ix2 (colAt n q) (LoraSpec.tcol (tileAt n) h)))
  (ha : ∀ n hn r h, ab n hn (ix2 r h) = A (ix2 r (LoraSpec.tcol (tileAt n) h)))
  (hb : ∀ n hn q r, bb n hn (ix2 q r) = Bm (ix2 (colAt n q) r))

include hx hw ha in
/-- After point n the accumulators hold the shares of tiles 0, …, n mod 4 of their dot products, added one at a time: a first tile starts from zero, a later one adds to what the point before, of the same row and column tile, left. -/
theorem acc_inv (n : ℕ) : ∀ (hn : n < N) (p q : Fin 1024) (r : Fin 16),
    (accs xb wb ab n hn).1 (ix2 p q) = LoraSpec.accAfter (LoraSpec.tileDot X W (rowAt n p) (colAt n q)) (n % 4)
      ∧ (accs xb wb ab n hn).2 (ix2 p r) = LoraSpec.accAfter (LoraSpec.tileDot X A (rowAt n p) r) (n % 4) := by
  induction n using Nat.strong_induction_on with
  | _ n ih =>
    intro hn p q r
    have exw : LoraSpec.tileDot X W (rowAt n p) (colAt n q) (tileAt n) = ∑ h : Fin 1024, xb n hn (ix2 p h) * wb n hn (ix2 q h) := by
      unfold LoraSpec.tileDot; exact Finset.sum_congr rfl fun h _ => by rw [hx, hw]
    have exa : LoraSpec.tileDot X A (rowAt n p) r (tileAt n) = ∑ h : Fin 1024, xb n hn (ix2 p h) * ab n hn (ix2 r h) := by
      unfold LoraSpec.tileDot; exact Finset.sum_congr rfl fun h _ => by rw [hx, ha]
    by_cases h0 : n % 4 = 0
    · rw [accs_first xb wb ab n hn h0, accAfter_at_first _ n h0, accAfter_at_first _ n h0, exw, exa]
      dsimp only
      exact ⟨by rw [pay_acc_apply, pay_zero_acc, zero_add], by rw [pay_lora_apply, pay_zero_lora, zero_add]⟩
    · obtain ⟨ihacc, ihlora⟩ := ih (n - 1) (by omega) (by omega) p q r
      rw [show rowAt (n - 1) p = rowAt n p from Fin.ext (by show 1024 * ((n - 1) / 16 % 8) + p.val = 1024 * (n / 16 % 8) + p.val; omega),
        show colAt (n - 1) q = colAt n q from Fin.ext (by show 1024 * ((n - 1) / 4 % 4) + q.val = 1024 * (n / 4 % 4) + q.val; omega)] at ihacc
      rw [show rowAt (n - 1) p = rowAt n p from Fin.ext (by show 1024 * ((n - 1) / 16 % 8) + p.val = 1024 * (n / 16 % 8) + p.val; omega)] at ihlora
      rw [accs_step xb wb ab n hn h0, accAfter_at_step _ n h0, accAfter_at_step _ n h0, exw, exa, ← ihacc, ← ihlora]
      exact ⟨pay_acc_apply _ _ _ p q, pay_lora_apply _ _ _ p r⟩

include hx hw ha hb in
/-- So at a last reduction tile the output block's entry (p, q) is the tiled projection at its row and column of the array. -/
theorem out_eq (n : ℕ) (hn : n < N) (hlast : n % 4 = 3) (p q : Fin 1024) :
    k0_pay6 (bb n hn) (accs xb wb ab n hn).2 (accs xb wb ab n hn).1 (ix2 p q) = LoraSpec.outAt X W A Bm (rowAt n p) (colAt n q) := by
  unfold LoraSpec.outAt
  rw [pay_out_apply, (acc_inv X W A xb wb ab hx hw ha n hn p q 0).1, hlast]
  refine congrArg (LoraSpec.accAfter (LoraSpec.tileDot X W (rowAt n p) (colAt n q)) 3 + LoraSpec.two * ·) (Finset.sum_congr rfl fun r _ => ?_)
  rw [(acc_inv X W A xb wb ab hx hw ha n hn p q r).2, hlast, hb]

end Cert.KernelIdeal.Body

end
-- ==== Proof.Q.Value.lean ====
import proofs.«101342_j17368847745269_1_alg».proof.Proof.Q.Region
import proofs.«101342_j17368847745269_1_alg».proof.Proof.Body.Tiled

noncomputable section

open scoped BigOperators

namespace Cert.KernelIdeal.ProjQ

open Cert.KernelIdeal Cert.KernelIdeal.Gen Cert.KernelIdeal.Body
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The four input arrays as the region finds them. -/
abbrev xArr (c : Dev nD) : Vec Ideal S8192x4096 .bf16 := V c (Pipeline.arrRef spec0 0)
abbrev wArr (c : Dev nD) : Vec Ideal S4096x4096 .bf16 := V c (Pipeline.arrRef spec0 1)
abbrev aArr (c : Dev nD) : Vec Ideal S16x4096 .bf16 := V c (Pipeline.arrRef spec0 2)
abbrev bArr (c : Dev nD) : Vec Ideal S4096x16 .bf16 := V c (Pipeline.arrRef spec0 3)

/-- The five windows' block indices at every point, decided over the grid. -/
theorem blockIdx : ∀ t : Fin cfg0.N, t.val < 128
    ∧ win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val % 4
    ∧ win0_3.index t (0 : Fin 2) = t.val / 4 % 4 ∧ win0_3.index t (1 : Fin 2) = 0
    ∧ win0_4.index t (0 : Fin 2) = t.val / 16 ∧ win0_4.index t (1 : Fin 2) = t.val / 4 % 4 :=
  (by decide +kernel : ∀ t : Fin grid0.N, _)

/-- A block's entry sits in its array at block index times block size plus the entry's coordinate, on each axis. -/
theorem xBlk_apply (c : Dev nD) (n : ℕ) (hn : n < cfg0.N) (p h : Fin 1024) :
    (iblk V c 0 ⟨n, hn⟩ : Vec Ideal S1024x1024 .bf16) (ix2 p h) = xArr V c (ix2 (rowAt n p) (LoraSpec.tcol (tileAt n) h)) := by
  obtain ⟨hlt, e1, e2, -⟩ := blockIdx ⟨n, hn⟩
  refine congrArg (V c (Pipeline.arrRef spec0 0)) (funext fun a => Fin.ext ?_)
  match a with
  | ⟨0, _⟩ => show win0_0.index ⟨n, hn⟩ (0 : Fin 2) * 1024 + 1 * p.val = 1024 * (n / 16 % 8) + p.val; dsimp only at hlt e1; omega
  | ⟨1, _⟩ => show win0_0.index ⟨n, hn⟩ (1 : Fin 2) * 1024 + 1 * h.val = 1024 * (n % 4) + h.val; dsimp only at e2; omega
theorem wBlk_apply (c : Dev nD) (n : ℕ) (hn : n < cfg0.N) (q h : Fin 1024) :
    (iblk V c 1 ⟨n, hn⟩ : Vec Ideal S1024x1024 .bf16) (ix2 q h) = wArr V c (ix2 (colAt n q) (LoraSpec.tcol (tileAt n) h)) := by
  obtain ⟨-, -, -, e1, e2, -⟩ := blockIdx ⟨n, hn⟩
  refine congrArg (V c (Pipeline.arrRef spec0 1)) (funext fun a => Fin.ext ?_)
  match a with
  | ⟨0, _⟩ => show win0_1.index ⟨n, hn⟩ (0 : Fin 2) * 1024 + 1 * q.val = 1024 * (n / 4 % 4) + q.val; dsimp only at e1; omega
  | ⟨1, _⟩ => show win0_1.index ⟨n, hn⟩ (1 : Fin 2) * 1024 + 1 * h.val = 1024 * (n % 4) + h.val; dsimp only at e2; omega
theorem aBlk_apply (c : Dev nD) (n : ℕ) (hn : n < cfg0.N) (r : Fin 16) (h : Fin 1024) :
    (iblk V c 2 ⟨n, hn⟩ : Vec Ideal S16x1024 .bf16) (ix2 r h) = aArr V c (ix2 r (LoraSpec.tcol (tileAt n) h)) := by
  obtain ⟨-, -, -, -, -, e1, e2, -⟩ := blockIdx ⟨n, hn⟩
  refine congrArg (V c (Pipeline.arrRef spec0 2)) (funext fun a => Fin.ext ?_)
  match a with
  | ⟨0, _⟩ => show win0_2.index ⟨n, hn⟩ (0 : Fin 2) * 16 + 1 * r.val = r.val; omega
  | ⟨1, _⟩ => show win0_2.index ⟨n, hn⟩ (1 : Fin 2) * 1024 + 1 * h.val = 1024 * (n % 4) + h.val; dsimp only at e2; omega
theorem bBlk_apply (c : Dev nD) (n : ℕ) (hn : n < cfg0.N) (q : Fin 1024) (r : Fin 16) :
    (iblk V c 3 ⟨n, hn⟩ : Vec Ideal S1024x16 .bf16) (ix2 q r) = bArr V c (ix2 (colAt n q) r) := by
  obtain ⟨-, -, -, -, -, -, -, e1, e2, -⟩ := blockIdx ⟨n, hn⟩
  refine congrArg (V c (Pipeline.arrRef spec0 3)) (funext fun a => Fin.ext ?_)
  match a with
  | ⟨0, _⟩ => show win0_3.index ⟨n, hn⟩ (0 : Fin 2) * 1024 + 1 * q.val = 1024 * (n / 4 % 4) + q.val; dsimp only at e1; omega
  | ⟨1, _⟩ => show win0_3.index ⟨n, hn⟩ (1 : Fin 2) * 16 + 1 * r.val = r.val; omega

theorem out_emb (t : Fin cfg0.N) (p q : Fin 1024) :
    ((cfg0.win 4).blk t).view.emb (ix2 p q) = ix2 (rowAt t.val p) (colAt t.val q) := by
  obtain ⟨hlt, -, -, -, -, -, -, -, -, e1, e2⟩ := blockIdx t
  funext a
  apply Fin.ext
  match a with
  | ⟨0, _⟩ => show win0_4.index t (0 : Fin 2) * 1024 + 1 * p.val = 1024 * (t.val / 16 % 8) + p.val; omega
  | ⟨1, _⟩ => show win0_4.index t (1 : Fin 2) * 1024 + 1 * q.val = 1024 * (t.val / 4 % 4) + q.val; omega

/-- What a point writes back (only the last reduction tiles do) is its block of the tiled projection. -/
theorem flushed_eq (c : Dev nD) (t : Fin cfg0.N) (hf : (cfg0.win 4).flush t = true) :
    (dat (F := Ideal) V c).flushed 4 t
      = ((cfg0.win 4).blk t).view.read (Elt Ideal) (LoraSpec.tiled (xArr V c) (wArr V c) (aArr V c) (bArr V c)) := by
  funext j
  obtain ⟨p, q, rfl⟩ : ∃ (p q : Fin 1024), j = ix2 p q := ⟨j 0, j 1, eq_ix2 j⟩
  show k0_pay6 (iblk V c 3 t) (accsR V c t.val t.isLt).2 (accsR V c t.val t.isLt).1 (ix2 p q)
    = LoraSpec.tiled (xArr V c) (wArr V c) (aArr V c) (bArr V c) (((cfg0.win 4).blk t).view.emb (ix2 p q))
  rw [out_emb t p q]
  exact out_eq (xArr V c) (wArr V c) (aArr V c) (bArr V c) _ _ _ (fun n hn => iblk V c 3 ⟨n, hn⟩)
    (xBlk_apply V c) (wBlk_apply V c) (aBlk_apply V c) (bBlk_apply V c) t.val t.isLt ((flush0_4 t).mp hf) p q

theorem mem_blk (t : Fin cfg0.N) (i : S8192x4096.Idx) :
    i ∈ ((cfg0.win 4).blk t).view.set
      ↔ ∀ a : Fin 2, win0_4.index t a * S1024x1024.size a ≤ (i a).val ∧ (i a).val < win0_4.index t a * S1024x1024.size a + S1024x1024.size a := by
  show i ∈ ((View.whole (Pipeline.arrRef spec0 4)).slice (win0_4.rect t)).set ↔ _
  rw [View.set_slice_whole, Rect.mem_set_unit]
  exact Iff.rfl

/-- The blocks tile the array: row R, column C is in the block that point 16 (R / 1024) + 4 (C / 1024) + 3 writes back. -/
theorem covered (i : S8192x4096.Idx) :
    ∃ t : Fin cfg0.N, (cfg0.win 4).flush t = true ∧ i ∈ ((cfg0.win 4).blk t).view.set := by
  have hr : (i 0).val < 8192 := (i 0).isLt
  have hc : (i 1).val < 4096 := (i 1).isLt
  obtain ⟨t, ht⟩ : ∃ t : Fin cfg0.N, t.val = 16 * ((i 0).val / 1024) + 4 * ((i 1).val / 1024) + 3 :=
    ⟨⟨16 * ((i 0).val / 1024) + 4 * ((i 1).val / 1024) + 3, lt_of_lt_of_eq (by omega) N_0.symm⟩, rfl⟩
  obtain ⟨-, -, -, -, -, -, -, -, -, e1, e2⟩ := blockIdx t
  refine ⟨t, (flush0_4 t).mpr (by omega), ?_⟩
  rw [mem_blk]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- The region's value: its output array ends at the tiled projection of its four input arrays. -/
theorem arr_out (c : Dev nD) :
    (dat (F := Ideal) V c).arrAt 4 cfg0.N = LoraSpec.tiled (xArr V c) (wArr V c) (aArr V c) (bArr V c) :=
  (dat (F := Ideal) V c).arrAt_eq_of_cover 4 _ (flushed_eq V c) covered

end Cert.KernelIdeal.ProjQ

end
-- ==== Proof.K.Value.lean ====
import proofs.«101342_j17368847745269_1_alg».proof.Proof.K.Region
import proofs.«101342_j17368847745269_1_alg».proof.Proof.Body.Tiled

noncomputable section

open scoped BigOperators

namespace Cert.KernelIdeal.ProjK

open Cert.KernelIdeal Cert.KernelIdeal.Gen Cert.KernelIdeal.Body
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The four input arrays as the region finds them. -/
abbrev xArr (c : Dev nD) : Vec Ideal S8192x4096 .bf16 := V c (Pipeline.arrRef spec1 0)
abbrev wArr (c : Dev nD) : Vec Ideal S4096x4096 .bf16 := V c (Pipeline.arrRef spec1 1)
abbrev aArr (c : Dev nD) : Vec Ideal S16x4096 .bf16 := V c (Pipeline.arrRef spec1 2)
abbrev bArr (c : Dev nD) : Vec Ideal S4096x16 .bf16 := V c (Pipeline.arrRef spec1 3)

/-- The five windows' block indices at every point, decided over the grid. -/
theorem blockIdx : ∀ t : Fin cfg1.N, t.val < 128
    ∧ win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val % 4
    ∧ win1_3.index t (0 : Fin 2) = t.val / 4 % 4 ∧ win1_3.index t (1 : Fin 2) = 0
    ∧ win1_4.index t (0 : Fin 2) = t.val / 16 ∧ win1_4.index t (1 : Fin 2) = t.val / 4 % 4 :=
  (by decide +kernel : ∀ t : Fin grid1.N, _)

/-- A block's entry sits in its array at block index times block size plus the entry's coordinate, on each axis. -/
theorem xBlk_apply (c : Dev nD) (n : ℕ) (hn : n < cfg1.N) (p h : Fin 1024) :
    (iblk V c 0 ⟨n, hn⟩ : Vec Ideal S1024x1024 .bf16) (ix2 p h) = xArr V c (ix2 (rowAt n p) (LoraSpec.tcol (tileAt n) h)) := by
  obtain ⟨hlt, e1, e2, -⟩ := blockIdx ⟨n, hn⟩
  refine congrArg (V c (Pipeline.arrRef spec1 0)) (funext fun a => Fin.ext ?_)
  match a with
  | ⟨0, _⟩ => show win1_0.index ⟨n, hn⟩ (0 : Fin 2) * 1024 + 1 * p.val = 1024 * (n / 16 % 8) + p.val; dsimp only at hlt e1; omega
  | ⟨1, _⟩ => show win1_0.index ⟨n, hn⟩ (1 : Fin 2) * 1024 + 1 * h.val = 1024 * (n % 4) + h.val; dsimp only at e2; omega
theorem wBlk_apply (c : Dev nD) (n : ℕ) (hn : n < cfg1.N) (q h : Fin 1024) :
    (iblk V c 1 ⟨n, hn⟩ : Vec Ideal S1024x1024 .bf16) (ix2 q h) = wArr V c (ix2 (colAt n q) (LoraSpec.tcol (tileAt n) h)) := by
  obtain ⟨-, -, -, e1, e2, -⟩ := blockIdx ⟨n, hn⟩
  refine congrArg (V c (Pipeline.arrRef spec1 1)) (funext fun a => Fin.ext ?_)
  match a with
  | ⟨0, _⟩ => show win1_1.index ⟨n, hn⟩ (0 : Fin 2) * 1024 + 1 * q.val = 1024 * (n / 4 % 4) + q.val; dsimp only at e1; omega
  | ⟨1, _⟩ => show win1_1.index ⟨n, hn⟩ (1 : Fin 2) * 1024 + 1 * h.val = 1024 * (n % 4) + h.val; dsimp only at e2; omega
theorem aBlk_apply (c : Dev nD) (n : ℕ) (hn : n < cfg1.N) (r : Fin 16) (h : Fin 1024) :
    (iblk V c 2 ⟨n, hn⟩ : Vec Ideal S16x1024 .bf16) (ix2 r h) = aArr V c (ix2 r (LoraSpec.tcol (tileAt n) h)) := by
  obtain ⟨-, -, -, -, -, e1, e2, -⟩ := blockIdx ⟨n, hn⟩
  refine congrArg (V c (Pipeline.arrRef spec1 2)) (funext fun a => Fin.ext ?_)
  match a with
  | ⟨0, _⟩ => show win1_2.index ⟨n, hn⟩ (0 : Fin 2) * 16 + 1 * r.val = r.val; omega
  | ⟨1, _⟩ => show win1_2.index ⟨n, hn⟩ (1 : Fin 2) * 1024 + 1 * h.val = 1024 * (n % 4) + h.val; dsimp only at e2; omega
theorem bBlk_apply (c : Dev nD) (n : ℕ) (hn : n < cfg1.N) (q : Fin 1024) (r : Fin 16) :
    (iblk V c 3 ⟨n, hn⟩ : Vec Ideal S1024x16 .bf16) (ix2 q r) = bArr V c (ix2 (colAt n q) r) := by
  obtain ⟨-, -, -, -, -, -, -, e1, e2, -⟩ := blockIdx ⟨n, hn⟩
  refine congrArg (V c (Pipeline.arrRef spec1 3)) (funext fun a => Fin.ext ?_)
  match a with
  | ⟨0, _⟩ => show win1_3.index ⟨n, hn⟩ (0 : Fin 2) * 1024 + 1 * q.val = 1024 * (n / 4 % 4) + q.val; dsimp only at e1; omega
  | ⟨1, _⟩ => show win1_3.index ⟨n, hn⟩ (1 : Fin 2) * 16 + 1 * r.val = r.val; omega

theorem out_emb (t : Fin cfg1.N) (p q : Fin 1024) :
    ((cfg1.win 4).blk t).view.emb (ix2 p q) = ix2 (rowAt t.val p) (colAt t.val q) := by
  obtain ⟨hlt, -, -, -, -, -, -, -, -, e1, e2⟩ := blockIdx t
  funext a
  apply Fin.ext
  match a with
  | ⟨0, _⟩ => show win1_4.index t (0 : Fin 2) * 1024 + 1 * p.val = 1024 * (t.val / 16 % 8) + p.val; omega
  | ⟨1, _⟩ => show win1_4.index t (1 : Fin 2) * 1024 + 1 * q.val = 1024 * (t.val / 4 % 4) + q.val; omega

/-- What a point writes back (only the last reduction tiles do) is its block of the tiled projection. -/
theorem flushed_eq (c : Dev nD) (t : Fin cfg1.N) (hf : (cfg1.win 4).flush t = true) :
    (dat (F := Ideal) V c).flushed 4 t
      = ((cfg1.win 4).blk t).view.read (Elt Ideal) (LoraSpec.tiled (xArr V c) (wArr V c) (aArr V c) (bArr V c)) := by
  funext j
  obtain ⟨p, q, rfl⟩ : ∃ (p q : Fin 1024), j = ix2 p q := ⟨j 0, j 1, eq_ix2 j⟩
  show k0_pay6 (iblk V c 3 t) (accsR V c t.val t.isLt).2 (accsR V c t.val t.isLt).1 (ix2 p q)
    = LoraSpec.tiled (xArr V c) (wArr V c) (aArr V c) (bArr V c) (((cfg1.win 4).blk t).view.emb (ix2 p q))
  rw [out_emb t p q]
  exact out_eq (xArr V c) (wArr V c) (aArr V c) (bArr V c) _ _ _ (fun n hn => iblk V c 3 ⟨n, hn⟩)
    (xBlk_apply V c) (wBlk_apply V c) (aBlk_apply V c) (bBlk_apply V c) t.val t.isLt ((flush1_4 t).mp hf) p q

theorem mem_blk (t : Fin cfg1.N) (i : S8192x4096.Idx) :
    i ∈ ((cfg1.win 4).blk t).view.set
      ↔ ∀ a : Fin 2, win1_4.index t a * S1024x1024.size a ≤ (i a).val ∧ (i a).val < win1_4.index t a * S1024x1024.size a + S1024x1024.size a := by
  show i ∈ ((View.whole (Pipeline.arrRef spec1 4)).slice (win1_4.rect t)).set ↔ _
  rw [View.set_slice_whole, Rect.mem_set_unit]
  exact Iff.rfl

/-- The blocks tile the array: row R, column C is in the block that point 16 (R / 1024) + 4 (C / 1024) + 3 writes back. -/
theorem covered (i : S8192x4096.Idx) :
    ∃ t : Fin cfg1.N, (cfg1.win 4).flush t = true ∧ i ∈ ((cfg1.win 4).blk t).view.set := by
  have hr : (i 0).val < 8192 := (i 0).isLt
  have hc : (i 1).val < 4096 := (i 1).isLt
  obtain ⟨t, ht⟩ : ∃ t : Fin cfg1.N, t.val = 16 * ((i 0).val / 1024) + 4 * ((i 1).val / 1024) + 3 :=
    ⟨⟨16 * ((i 0).val / 1024) + 4 * ((i 1).val / 1024) + 3, lt_of_lt_of_eq (by omega) N_1.symm⟩, rfl⟩
  obtain ⟨-, -, -, -, -, -, -, -, -, e1, e2⟩ := blockIdx t
  refine ⟨t, (flush1_4 t).mpr (by omega), ?_⟩
  rw [mem_blk]
  intro a
  match a with
  | ⟨0, _⟩ =>
    show win1_4.index t (0 : Fin 2) * 1024 ≤ (i 0).val ∧ (i 0).val < win1_4.index t (0 : Fin 2) * 1024 + 1024
    omega
  | ⟨1, _⟩ =>
    show win1_4.index t (1 : Fin 2) * 1024 ≤ (i 1).val ∧ (i 1).val < win1_4.index t (1 : Fin 2) * 1024 + 1024
    omega

/-- The region's value: its output array ends at the tiled projection of its four input arrays. -/
theorem arr_out (c : Dev nD) :
    (dat (F := Ideal) V c).arrAt 4 cfg1.N = LoraSpec.tiled (xArr V c) (wArr V c) (aArr V c) (bArr V c) :=
  (dat (F := Ideal) V c).arrAt_eq_of_cover 4 _ (flushed_eq V c) covered

end Cert.KernelIdeal.ProjK

end
-- ==== Proof.V.Value.lean ====
import proofs.«101342_j17368847745269_1_alg».proof.Proof.V.Region
import proofs.«101342_j17368847745269_1_alg».proof.Proof.Body.Tiled

noncomputable section

open scoped BigOperators

namespace Cert.KernelIdeal.ProjV

open Cert.KernelIdeal Cert.KernelIdeal.Gen Cert.KernelIdeal.Body
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The four input arrays as the region finds them. -/
abbrev xArr (c : Dev nD) : Vec Ideal S8192x4096 .bf16 := V c (Pipeline.arrRef spec2 0)
abbrev wArr (c : Dev nD) : Vec Ideal S4096x4096 .bf16 := V c (Pipeline.arrRef spec2 1)
abbrev aArr (c : Dev nD) : Vec Ideal S16x4096 .bf16 := V c (Pipeline.arrRef spec2 2)
abbrev bArr (c : Dev nD) : Vec Ideal S4096x16 .bf16 := V c (Pipeline.arrRef spec2 3)

/-- The five windows' block indices at every point, decided over the grid. -/
theorem blockIdx : ∀ t : Fin cfg2.N, t.val < 128
    ∧ win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val % 4
    ∧ win2_3.index t (0 : Fin 2) = t.val / 4 % 4 ∧ win2_3.index t (1 : Fin 2) = 0
    ∧ win2_4.index t (0 : Fin 2) = t.val / 16 ∧ win2_4.index t (1 : Fin 2) = t.val / 4 % 4 :=
  (by decide +kernel : ∀ t : Fin grid2.N, _)

/-- A block's entry sits in its array at block index times block size plus the entry's coordinate, on each axis. -/
theorem xBlk_apply (c : Dev nD) (n : ℕ) (hn : n < cfg2.N) (p h : Fin 1024) :
    (iblk V c 0 ⟨n, hn⟩ : Vec Ideal S1024x1024 .bf16) (ix2 p h) = xArr V c (ix2 (rowAt n p) (LoraSpec.tcol (tileAt n) h)) := by
  obtain ⟨hlt, e1, e2, -⟩ := blockIdx ⟨n, hn⟩
  refine congrArg (V c (Pipeline.arrRef spec2 0)) (funext fun a => Fin.ext ?_)
  match a with
  | ⟨0, _⟩ => show win2_0.index ⟨n, hn⟩ (0 : Fin 2) * 1024 + 1 * p.val = 1024 * (n / 16 % 8) + p.val; dsimp only at hlt e1; omega
  | ⟨1, _⟩ => show win2_0.index ⟨n, hn⟩ (1 : Fin 2) * 1024 + 1 * h.val = 1024 * (n % 4) + h.val; dsimp only at e2; omega
theorem wBlk_apply (c : Dev nD) (n : ℕ) (hn : n < cfg2.N) (q h : Fin 1024) :
    (iblk V c 1 ⟨n, hn⟩ : Vec Ideal S1024x1024 .bf16) (ix2 q h) = wArr V c (ix2 (colAt n q) (LoraSpec.tcol (tileAt n) h)) := by
  obtain ⟨-, -, -, e1, e2, -⟩ := blockIdx ⟨n, hn⟩
  refine congrArg (V c (Pipeline.arrRef spec2 1)) (funext fun a => Fin.ext ?_)
  match a with
  | ⟨0, _⟩ => show win2_1.index ⟨n, hn⟩ (0 : Fin 2) * 1024 + 1 * q.val = 1024 * (n / 4 % 4) + q.val; dsimp only at e1; omega
  | ⟨1, _⟩ => show win2_1.index ⟨n, hn⟩ (1 : Fin 2) * 1024 + 1 * h.val = 1024 * (n % 4) + h.val; dsimp only at e2; omega
theorem aBlk_apply (c : Dev nD) (n : ℕ) (hn : n < cfg2.N) (r : Fin 16) (h : Fin 1024) :
    (iblk V c 2 ⟨n, hn⟩ : Vec Ideal S16x1024 .bf16) (ix2 r h) = aArr V c (ix2 r (LoraSpec.tcol (tileAt n) h)) := by
  obtain ⟨-, -, -, -, -, e1, e2, -⟩ := blockIdx ⟨n, hn⟩
  refine congrArg (V c (Pipeline.arrRef spec2 2)) (funext fun a => Fin.ext ?_)
  match a with
  | ⟨0, _⟩ => show win2_2.index ⟨n, hn⟩ (0 : Fin 2) * 16 + 1 * r.val = r.val; omega
  | ⟨1, _⟩ => show win2_2.index ⟨n, hn⟩ (1 : Fin 2) * 1024 + 1 * h.val = 1024 * (n % 4) + h.val; dsimp only at e2; omega
theorem bBlk_apply (c : Dev nD) (n : ℕ) (hn : n < cfg2.N) (q : Fin 1024) (r : Fin 16) :
    (iblk V c 3 ⟨n, hn⟩ : Vec Ideal S1024x16 .bf16) (ix2 q r) = bArr V c (ix2 (colAt n q) r) := by
  obtain ⟨-, -, -, -, -, -, -, e1, e2, -⟩ := blockIdx ⟨n, hn⟩
  refine congrArg (V c (Pipeline.arrRef spec2 3)) (funext fun a => Fin.ext ?_)
  match a with
  | ⟨0, _⟩ => show win2_3.index ⟨n, hn⟩ (0 : Fin 2) * 1024 + 1 * q.val = 1024 * (n / 4 % 4) + q.val; dsimp only at e1; omega
  | ⟨1, _⟩ => show win2_3.index ⟨n, hn⟩ (1 : Fin 2) * 16 + 1 * r.val = r.val; omega

theorem out_emb (t : Fin cfg2.N) (p q : Fin 1024) :
    ((cfg2.win 4).blk t).view.emb (ix2 p q) = ix2 (rowAt t.val p) (colAt t.val q) := by
  obtain ⟨hlt, -, -, -, -, -, -, -, -, e1, e2⟩ := blockIdx t
  funext a
  apply Fin.ext
  match a with
  | ⟨0, _⟩ => show win2_4.index t (0 : Fin 2) * 1024 + 1 * p.val = 1024 * (t.val / 16 % 8) + p.val; omega
  | ⟨1, _⟩ => show win2_4.index t (1 : Fin 2) * 1024 + 1 * q.val = 1024 * (t.val / 4 % 4) + q.val; omega

/-- What a point writes back (only the last reduction tiles do) is its block of the tiled projection. -/
theorem flushed_eq (c : Dev nD) (t : Fin cfg2.N) (hf : (cfg2.win 4).flush t = true) :
    (dat (F := Ideal) V c).flushed 4 t
      = ((cfg2.win 4).blk t).view.read (Elt Ideal) (LoraSpec.tiled (xArr V c) (wArr V c) (aArr V c) (bArr V c)) := by
  funext j
  obtain ⟨p, q, rfl⟩ : ∃ (p q : Fin 1024), j = ix2 p q := ⟨j 0, j 1, eq_ix2 j⟩
  show k0_pay6 (iblk V c 3 t) (accsR V c t.val t.isLt).2 (accsR V c t.val t.isLt).1 (ix2 p q)
    = LoraSpec.tiled (xArr V c) (wArr V c) (aArr V c) (bArr V c) (((cfg2.win 4).blk t).view.emb (ix2 p q))
  rw [out_emb t p q]
  exact out_eq (xArr V c) (wArr V c) (aArr V c) (bArr V c) _ _ _ (fun n hn => iblk V c 3 ⟨n, hn⟩)
    (xBlk_apply V c) (wBlk_apply V c) (aBlk_apply V c) (bBlk_apply V c) t.val t.isLt ((flush2_4 t).mp hf) p q

theorem mem_blk (t : Fin cfg2.N) (i : S8192x4096.Idx) :
    i ∈ ((cfg2.win 4).blk t).view.set
      ↔ ∀ a : Fin 2, win2_4.index t a * S1024x1024.size a ≤ (i a).val ∧ (i a).val < win2_4.index t a * S1024x1024.size a + S1024x1024.size a := by
  show i ∈ ((View.whole (Pipeline.arrRef spec2 4)).slice (win2_4.rect t)).set ↔ _
  rw [View.set_slice_whole, Rect.mem_set_unit]
  exact Iff.rfl

/-- The blocks tile the array: row R, column C is in the block that point 16 (R / 1024) + 4 (C / 1024) + 3 writes back. -/
theorem covered (i : S8192x4096.Idx) :
    ∃ t : Fin cfg2.N, (cfg2.win 4).flush t = true ∧ i ∈ ((cfg2.win 4).blk t).view.set := by
  have hr : (i 0).val < 8192 := (i 0).isLt
  have hc : (i 1).val < 4096 := (i 1).isLt
  obtain ⟨t, ht⟩ : ∃ t : Fin cfg2.N, t.val = 16 * ((i 0).val / 1024) + 4 * ((i 1).val / 1024) + 3 :=
    ⟨⟨16 * ((i 0).val / 1024) + 4 * ((i 1).val / 1024) + 3, lt_of_lt_of_eq (by omega) N_2.symm⟩, rfl⟩
  obtain ⟨-, -, -, -, -, -, -, -, -, e1, e2⟩ := blockIdx t
  refine ⟨t, (flush2_4 t).mpr (by omega), ?_⟩
  rw [mem_blk]
  intro a
  match a with
  | ⟨0, _⟩ =>
    show win2_4.index t (0 : Fin 2) * 1024 ≤ (i 0).val ∧ (i 0).val < win2_4.index t (0 : Fin 2) * 1024 + 1024
    omega
  | ⟨1, _⟩ =>
    show win2_4.index t (1 : Fin 2) * 1024 ≤ (i 1).val ∧ (i 1).val < win2_4.index t (1 : Fin 2) * 1024 + 1024
    omega

/-- The region's value: its output array ends at the tiled projection of its four input arrays. -/
theorem arr_out (c : Dev nD) :
    (dat (F := Ideal) V c).arrAt 4 cfg2.N = LoraSpec.tiled (xArr V c) (wArr V c) (aArr V c) (bArr V c) :=
  (dat (F := Ideal) V c).arrAt_eq_of_cover 4 _ (flushed_eq V c) covered

end Cert.KernelIdeal.ProjV

end
-- ==== Proof.Bridge.lean ====
import proofs.«101342_j17368847745269_1_alg».proof.Defs
import proofs.«101342_j17368847745269_1_alg».proof.Proof.Gen.KernelIdeal
import proofs.«101342_j17368847745269_1_alg».proof.Proof.Gen.ReferenceIdeal.Run
import proofs.«101342_j17368847745269_1_alg».proof.Proof.Gen.ReferenceIdeal.Read
import proofs.«101342_j17368847745269_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Bridge

open Idealize.ShloMosaic Idealize.ShloMosaic.ValueIdx Cert.LoraSpec

section KernelSide
open Cert.KernelIdeal Cert.KernelIdeal.Gen

/-- The kernel program's result: the activations flattened to 8192 rows, the tiled projection, the three axes restored. -/
def kernelTerm (X : FVec Ideal S4x2048x4096 .f32) (W : FVec Ideal S4096x4096 .f32) (A : FVec Ideal S16x4096 .f32) (B : FVec Ideal S4096x16 .f32) :
    FVec Ideal S4x2048x4096 .f32 :=
  shapeCast S4x2048x4096
    (tiled (truncf .bf16 (shapeCast S8192x4096 X shapeCasts_S4x2048x4096_S8192x4096) bitsLt_bf16_f32) (truncf .bf16 W bitsLt_bf16_f32)
      (truncf .bf16 A bitsLt_bf16_f32) (truncf .bf16 B bitsLt_bf16_f32) : FVec Ideal S8192x4096 .f32)
    shapeCasts_S8192x4096_S4x2048x4096

end KernelSide

section ReferenceSide
open Cert.ReferenceIdeal Cert.ReferenceIdeal.Gen

def referenceTerm (X : FVec Ideal S4x2048x4096 .f32) (W : FVec Ideal S4096x4096 .f32) (A : FVec Ideal S16x4096 .f32) (B : FVec Ideal S4096x16 .f32) :
    FVec Ideal S4x2048x4096 .f32 :=
  addf (Host.dotGeneral dot_S4x2048x4096_S4096x4096_S4x2048x4096_2_1_01_0_n_n none X W)
    (mulf (broadcastInDim S4x2048x4096 ![] bcast_S_S4x2048x4096 (constant S_ .f32 0x40000000#32))
      (Host.dotGeneral dot_S4x2048x16_S4096x16_S4x2048x4096_2_1_01_0_n_n none (Host.dotGeneral dot_S4x2048x4096_S16x4096_S4x2048x16_2_1_01_0_n_n none X A) B))

end ReferenceSide

section KernelRead
open Cert.KernelIdeal

/-- Row 2048 b + s, column h of the flattened array and place (b, s, h) of the three-axis array have one row-major position. -/
private theorem rowMajor_flat (b : Fin 4) (s : Fin 2048) (h : Fin 4096) (hp : 2048 * b.val + s.val < 8192) :
    (S8192x4096.rowMajor (ix2 ⟨2048 * b.val + s.val, hp⟩ h)).val = (S4x2048x4096.rowMajor (ix3 b s h)).val := by
  rw [Shape.rowMajor_val_two, Shape.rowMajor_val_three]
  show (2048 * b.val + s.val) * 4096 + h.val = (b.val * 2048 + s.val) * 4096 + h.val
  omega

private theorem flat_apply (X : FVec Ideal S4x2048x4096 .f32) (hc : S4x2048x4096.ShapeCasts S8192x4096)
    (b : Fin 4) (s : Fin 2048) (h : Fin 4096) (hp : 2048 * b.val + s.val < 8192) :
    shapeCast S8192x4096 X hc (ix2 ⟨2048 * b.val + s.val, hp⟩ h) = X (ix3 b s h) :=
  shapeCast_apply X hc _ _ (rowMajor_flat b s h hp).symm

private theorem kernel_apply (X : FVec Ideal S4x2048x4096 .f32) (W : FVec Ideal S4096x4096 .f32)
    (A : FVec Ideal S16x4096 .f32) (B : FVec Ideal S4096x16 .f32) (b : Fin 4) (s : Fin 2048) (n : Fin 4096) :
    kernelTerm X W A B (ix3 b s n)
      = (∑ h : Fin 4096, X (ix3 b s h) * W (ix2 n h))
        + two * ∑ r : Fin 16, (∑ h : Fin 4096, X (ix3 b s h) * A (ix2 r h)) * B (ix2 n r) := by
  have hp : 2048 * b.val + s.val < 8192 := by have := b.isLt; have := s.isLt; omega
  unfold kernelTerm
  rw [shapeCast_apply _ _ (ix3 b s n) (ix2 ⟨2048 * b.val + s.val, hp⟩ n) (rowMajor_flat b s n hp)]
  show outAt _ _ _ _ ⟨2048 * b.val + s.val, hp⟩ n = _
  rw [outAt_eq_wholeAt, wholeAt]
  simp only [truncf_apply, flat_apply]

end KernelRead

section ReferenceRead
open Cert.ReferenceIdeal Cert.ReferenceIdeal.Read

private theorem lidx_v0 (b : Fin 4) (s : Fin 2048) (n k : Fin 4096) : lidx_main_v0 (ix3 b s n) k = ix3 b s k :=
  funext fun a => match a with | ⟨0, _⟩ => rfl | ⟨1, _⟩ => rfl | ⟨2, _⟩ => rfl
private theorem ridx_v0 (b : Fin 4) (s : Fin 2048) (n k : Fin 4096) : ridx_main_v0 (ix3 b s n) k = ix2 n k :=
  funext fun a => match a with | ⟨0, _⟩ => rfl | ⟨1, _⟩ => rfl
private theorem lidx_v1 (b : Fin 4) (s : Fin 2048) (r : Fin 16) (k : Fin 4096) : lidx_main_v1 (ix3 b s r) k = ix3 b s k :=
  funext fun a => match a with | ⟨0, _⟩ => rfl | ⟨1, _⟩ => rfl | ⟨2, _⟩ => rfl
private theorem ridx_v1 (b : Fin 4) (s : Fin 2048) (r : Fin 16) (k : Fin 4096) : ridx_main_v1 (ix3 b s r) k = ix2 r k :=
  funext fun a => match a with | ⟨0, _⟩ => rfl | ⟨1, _⟩ => rfl
private theorem lidx_v2 (b : Fin 4) (s : Fin 2048) (n : Fin 4096) (r : Fin 16) : lidx_main_v2 (ix3 b s n) r = ix3 b s r :=
  funext fun a => match a with | ⟨0, _⟩ => rfl | ⟨1, _⟩ => rfl | ⟨2, _⟩ => rfl
private theorem ridx_v2 (b : Fin 4) (s : Fin 2048) (n : Fin 4096) (r : Fin 16) : ridx_main_v2 (ix3 b s n) r = ix2 n r :=
  funext fun a => match a with | ⟨0, _⟩ => rfl | ⟨1, _⟩ => rfl

private theorem reference_apply (X : FVec Ideal S4x2048x4096 .f32) (W : FVec Ideal S4096x4096 .f32)
    (A : FVec Ideal S16x4096 .f32) (B : FVec Ideal S4096x16 .f32) (b : Fin 4) (s : Fin 2048) (n : Fin 4096) :
    referenceTerm X W A B (ix3 b s n)
      = (∑ h : Fin 4096, X (ix3 b s h) * W (ix2 n h))
        + two * ∑ r : Fin 16, (∑ h : Fin 4096, X (ix3 b s h) * A (ix2 r h)) * B (ix2 n r) := by
  show val_main_v5 (F := Ideal) X W A B (ix3 b s n) = _
  rw [val_main_v5_apply, val_main_v4_apply, val_main_v3_apply, val_main_cst_apply, val_main_v0_apply,
    val_main_v2_apply, Ideal.addf_def, Ideal.mulf_def, Ideal.ofBits_def, two]
  refine congrArg₂ (· + ·) (Finset.sum_congr rfl fun k _ => ?_)
    (congrArg (_ * ·) (Finset.sum_congr rfl fun r _ => ?_))
  · rw [lidx_v0, ridx_v0]
  · rw [lidx_v2, ridx_v2, val_main_v1_apply]
    refine congrArg (· * _) (Finset.sum_congr rfl fun k _ => ?_)
    rw [lidx_v1, ridx_v1]

end ReferenceRead

/-- Index by index both programs compute the projection of the specification. -/
theorem reference_eq_kernel (X : FVec Ideal Cert.KernelIdeal.S4x2048x4096 .f32) (W : FVec Ideal Cert.KernelIdeal.S4096x4096 .f32)
    (A : FVec Ideal Cert.KernelIdeal.S16x4096 .f32) (B : FVec Ideal Cert.KernelIdeal.S4096x16 .f32) :
    referenceTerm X W A B = kernelTerm X W A B := by
  funext i
  obtain ⟨b, s, n, rfl⟩ : ∃ (b : Fin 4) (s : Fin 2048) (n : Fin 4096), i = ix3 b s n := ⟨i 0, i 1, i 2, eq_ix3 i⟩
  rw [reference_apply, kernel_apply]

end Cert.Bridge

end
-- ==== Proof.Results.lean ====
import proofs.«101342_j17368847745269_1_alg».proof.Proof.Main
import proofs.«101342_j17368847745269_1_alg».proof.Proof.Q.Value
import proofs.«101342_j17368847745269_1_alg».proof.Proof.K.Value
import proofs.«101342_j17368847745269_1_alg».proof.Proof.V.Value
import proofs.«101342_j17368847745269_1_alg».proof.Proof.Bridge
import Idealize.ShloMosaic.Lib.StableHlo.Run

noncomputable section

namespace Cert.KernelIdeal.Whole

open Cert.KernelIdeal Cert.KernelIdeal.Gen
open Idealize.ShloMosaic Idealize.ShloMosaic.TcCoe
open Idealize.ShloMosaic.Pipeline (Dat Cfg Window)

variable (m : (ℓ : Loc nD τ sig) → Buf (Elt Ideal) ℓ)

theorem mem1_v1 (c : Dev nD) :
    (mem1 m c (Proc.devRef .tc main_v1) : Vec Ideal S8192x4096 .bf16)
      = truncf (F := Ideal) .bf16 (shapeCast S8192x4096 (m ((c : Thread nD τ).loc main_arg0) : FVec Ideal S4x2048x4096 .f32) shapeCasts_S4x2048x4096_S8192x4096) bitsLt_bf16_f32 := by
  show StableHlo.after hostOps0 (mem0 m c) (Proc.devRef .tc main_v1) = _
  after_results <;> rfl

theorem mem1_v2 (c : Dev nD) :
    (mem1 m c (Proc.devRef .tc main_v2) : Vec Ideal S4096x4096 .bf16)
      = truncf (F := Ideal) .bf16 (m ((c : Thread nD τ).loc main_arg1) : FVec Ideal S4096x4096 .f32) bitsLt_bf16_f32 := by
  show StableHlo.after hostOps0 (mem0 m c) (Proc.devRef .tc main_v2) = _
  after_results <;> rfl

theorem mem1_v3 (c : Dev nD) :
    (mem1 m c (Proc.devRef .tc main_v3) : Vec Ideal S16x4096 .bf16)
      = truncf (F := Ideal) .bf16 (m ((c : Thread nD τ).loc main_arg2) : FVec Ideal S16x4096 .f32) bitsLt_bf16_f32 := by
  show StableHlo.after hostOps0 (mem0 m c) (Proc.devRef .tc main_v3) = _
  after_results <;> rfl

theorem mem1_v4 (c : Dev nD) :
    (mem1 m c (Proc.devRef .tc main_v4) : Vec Ideal S4096x16 .bf16)
      = truncf (F := Ideal) .bf16 (m ((c : Thread nD τ).loc main_arg3) : FVec Ideal S4096x16 .f32) bitsLt_bf16_f32 := by
  show StableHlo.after hostOps0 (mem0 m c) (Proc.devRef .tc main_v4) = _
  after_results <;> rfl

theorem mem1_v5 (c : Dev nD) :
    (mem1 m c (Proc.devRef .tc main_v5) : Vec Ideal S4096x4096 .bf16)
      = truncf (F := Ideal) .bf16 (m ((c : Thread nD τ).loc main_arg4) : FVec Ideal S4096x4096 .f32) bitsLt_bf16_f32 := by
  show StableHlo.after hostOps0 (mem0 m c) (Proc.devRef .tc main_v5) = _
  after_results <;> rfl

theorem mem1_v6 (c : Dev nD) :
    (mem1 m c (Proc.devRef .tc main_v6) : Vec Ideal S16x4096 .bf16)
      = truncf (F := Ideal) .bf16 (m ((c : Thread nD τ).loc main_arg5) : FVec Ideal S16x4096 .f32) bitsLt_bf16_f32 := by
  show StableHlo.after hostOps0 (mem0 m c) (Proc.devRef .tc main_v6) = _
  after_results <;> rfl

theorem mem1_v7 (c : Dev nD) :
    (mem1 m c (Proc.devRef .tc main_v7) : Vec Ideal S4096x16 .bf16)
      = truncf (F := Ideal) .bf16 (m ((c : Thread nD τ).loc main_arg6) : FVec Ideal S4096x16 .f32) bitsLt_bf16_f32 := by
  show StableHlo.after hostOps0 (mem0 m c) (Proc.devRef .tc main_v7) = _
  after_results <;> rfl

theorem mem1_v8 (c : Dev nD) :
    (mem1 m c (Proc.devRef .tc main_v8) : Vec Ideal S4096x4096 .bf16)
      = truncf (F := Ideal) .bf16 (m ((c : Thread nD τ).loc main_arg7) : FVec Ideal S4096x4096 .f32) bitsLt_bf16_f32 := by
  show StableHlo.after hostOps0 (mem0 m c) (Proc.devRef .tc main_v8) = _
  after_results <;> rfl

theorem mem1_v9 (c : Dev nD) :
    (mem1 m c (Proc.devRef .tc main_v9) : Vec Ideal S16x4096 .bf16)
      = truncf (F := Ideal) .bf16 (m ((c : Thread nD τ).loc main_arg8) : FVec Ideal S16x4096 .f32) bitsLt_bf16_f32 := by
  show StableHlo.after hostOps0 (mem0 m c) (Proc.devRef .tc main_v9) = _
  after_results <;> rfl

theorem mem1_v10 (c : Dev nD) :
    (mem1 m c (Proc.devRef .tc main_v10) : Vec Ideal S4096x16 .bf16)
      = truncf (F := Ideal) .bf16 (m ((c : Thread nD τ).loc main_arg9) : FVec Ideal S4096x16 .f32) bitsLt_bf16_f32 := by
  show StableHlo.after hostOps0 (mem0 m c) (Proc.devRef .tc main_v10) = _
  after_results <;> rfl

theorem mem2_v1 (c : Dev nD) : mem2 m c (Proc.devRef .tc main_v1) = mem1 m c (Proc.devRef .tc main_v1) :=
  (mem2_arr m c 0).trans (((ProjQ.dat (at1 m) c).arrAt_in 0 rfl _).trans rfl)

theorem mem3_v1 (c : Dev nD) : mem3 m c (Proc.devRef .tc main_v1) = mem2 m c (Proc.devRef .tc main_v1) :=
  (mem3_arr m c 0).trans (((ProjK.dat (at2 m) c).arrAt_in 0 rfl _).trans rfl)

theorem mem2_v11 (c : Dev nD) :
    (mem2 m c (Proc.devRef .tc main_v11) : Vec Ideal S8192x4096 .f32)
      = LoraSpec.tiled (mem1 m c (Proc.devRef .tc main_v1)) (mem1 m c (Proc.devRef .tc main_v2))
          (mem1 m c (Proc.devRef .tc main_v3)) (mem1 m c (Proc.devRef .tc main_v4)) :=
  (mem2_arr m c 4).trans (ProjQ.arr_out (at1 m) c)

theorem mem3_v12 (c : Dev nD) :
    (mem3 m c (Proc.devRef .tc main_v12) : Vec Ideal S8192x4096 .f32)
      = LoraSpec.tiled (mem2 m c (Proc.devRef .tc main_v1)) (mem2 m c (Proc.devRef .tc main_v5))
          (mem2 m c (Proc.devRef .tc main_v6)) (mem2 m c (Proc.devRef .tc main_v7)) :=
  (mem3_arr m c 4).trans (ProjK.arr_out (at2 m) c)

theorem mem4_v13 (c : Dev nD) :
    (mem4 m c (Proc.devRef .tc main_v13) : Vec Ideal S8192x4096 .f32)
      = LoraSpec.tiled (mem3 m c (Proc.devRef .tc main_v1)) (mem3 m c (Proc.devRef .tc main_v8))
          (mem3 m c (Proc.devRef .tc main_v9)) (mem3 m c (Proc.devRef .tc main_v10)) :=
  (mem4_arr m c 4).trans (ProjV.arr_out (at3 m) c)

theorem mem5_v14 (c : Dev nD) :
    (mem5 m c (Proc.devRef .tc main_v14) : Vec Ideal S4x2048x4096 .f32)
      = shapeCast S4x2048x4096 (mem4 m c (Proc.devRef .tc main_v11) : Vec Ideal S8192x4096 .f32) shapeCasts_S8192x4096_S4x2048x4096 := by
  show StableHlo.after hostOps3 (mem4 m c) (Proc.devRef .tc main_v14) = _
  after_results <;> rfl

theorem mem5_v15 (c : Dev nD) :
    (mem5 m c (Proc.devRef .tc main_v15) : Vec Ideal S4x2048x4096 .f32)
      = shapeCast S4x2048x4096 (mem4 m c (Proc.devRef .tc main_v12) : Vec Ideal S8192x4096 .f32) shapeCasts_S8192x4096_S4x2048x4096 := by
  show StableHlo.after hostOps3 (mem4 m c) (Proc.devRef .tc main_v15) = _
  after_results <;> rfl

theorem mem5_v16 (c : Dev nD) :
    (mem5 m c (Proc.devRef .tc main_v16) : Vec Ideal S4x2048x4096 .f32)
      = shapeCast S4x2048x4096 (mem4 m c (Proc.devRef .tc main_v13) : Vec Ideal S8192x4096 .f32) shapeCasts_S8192x4096_S4x2048x4096 := by
  show StableHlo.after hostOps3 (mem4 m c) (Proc.devRef .tc main_v16) = _
  after_results <;> rfl

theorem result_Q (c : Dev nD) :
    mem5 m c (Proc.devRef .tc main_v14) = Cert.Bridge.kernelTerm (m ((c : Thread nD τ).loc main_arg0)) (m ((c : Thread nD τ).loc main_arg1)) (m ((c : Thread nD τ).loc main_arg2)) (m ((c : Thread nD τ).loc main_arg3)) := by
  refine (mem5_v14 m c).trans ?_
  rw [mem4_of_ne m c main_v11 (by decide), mem3_of_ne m c main_v11 (by decide), mem2_v11,
    mem1_v1, mem1_v2, mem1_v3, mem1_v4]
  rfl

theorem result_K (c : Dev nD) :
    mem5 m c (Proc.devRef .tc main_v15) = Cert.Bridge.kernelTerm (m ((c : Thread nD τ).loc main_arg0)) (m ((c : Thread nD τ).loc main_arg4)) (m ((c : Thread nD τ).loc main_arg5)) (m ((c : Thread nD τ).loc main_arg6)) := by
  refine (mem5_v15 m c).trans ?_
  rw [mem4_of_ne m c main_v12 (by decide), mem3_v12, mem2_v1,
    mem2_of_ne m c main_v5 (by decide), mem2_of_ne m c main_v6 (by decide), mem2_of_ne m c main_v7 (by decide),
    mem1_v1, mem1_v5, mem1_v6, mem1_v7]
  rfl

theorem result_V (c : Dev nD) :
    mem5 m c (Proc.devRef .tc main_v16) = Cert.Bridge.kernelTerm (m ((c : Thread nD τ).loc main_arg0)) (m ((c : Thread nD τ).loc main_arg7)) (m ((c : Thread nD τ).loc main_arg8)) (m ((c : Thread nD τ).loc main_arg9)) := by
  refine (mem5_v16 m c).trans ?_
  rw [mem4_v13, mem3_v1, mem2_v1,
    mem3_of_ne m c main_v8 (by decide), mem3_of_ne m c main_v9 (by decide), mem3_of_ne m c main_v10 (by decide),
    mem2_of_ne m c main_v8 (by decide), mem2_of_ne m c main_v9 (by decide), mem2_of_ne m c main_v10 (by decide),
    mem1_v1, mem1_v8, mem1_v9, mem1_v10]
  rfl

end Cert.KernelIdeal.Whole

end
-- ==== Proof.lean ====
import proofs.«101342_j17368847745269_1_alg».proof.Defs
import proofs.«101342_j17368847745269_1_alg».proof.Proof.Gen.Kernel
import proofs.«101342_j17368847745269_1_alg».proof.Proof.Gen.KernelIdeal
import proofs.«101342_j17368847745269_1_alg».proof.Proof.Gen.ReferenceIdeal
import proofs.«101342_j17368847745269_1_alg».proof.Proof.Gen.Pre_finite_inputs
import proofs.«101342_j17368847745269_1_alg».proof.Proof.Gen.ReferenceIdeal.Run
import proofs.«101342_j17368847745269_1_alg».proof.Proof.Gen.ReferenceIdeal.Read
import proofs.«101342_j17368847745269_1_alg».proof.Proof.Main
import proofs.«101342_j17368847745269_1_alg».proof.Proof.Results
import proofs.«101342_j17368847745269_1_alg».proof.Proof.Bridge
import Idealize.ShloMosaic.Adequacy
import Idealize.ShloMosaic.Init

noncomputable section

namespace Cert.Proof

open Idealize.ShloMosaic Idealize.ShloMosaic.TcCoe Idealize.SL.Sem
open Cert.KernelIdeal

set_option maxHeartbeats 4000000 in
/-- The word-level program and its idealization are one text read at two instances: their body tables agree label by label. -/
theorem defs_eq {F : FTy → Type} [FloatOps F] : Cert.Kernel.defs (F := F) = Cert.KernelIdeal.defs (F := F) := by
  refine congrArg (Pipeline.defs pcfgs) ?_
  unfold Cert.Kernel.defs₀ Cert.KernelIdeal.defs₀
  refine congrArg Defs.onTc (funext fun l => funext fun a => ?_)
  match l, a with
  | 0, (t, s) => rfl
  | 1, (t, s) => rfl
  | 2, (t, s) => rfl
  | ⟨_ + 3, h⟩, _ => exact absurd h (Nat.not_lt.2 (Nat.le_add_left _ _))

/-- So the frame proved at any instance serves the word-level program. -/
theorem frame_kernel : Cert.frame_Kernel (hKernel := Cert.Kernel.Gen.facts) (hPre_finite_inputs := Cert.Pre_finite_inputs.Gen.facts) :=
  fun m ρ _ => by rw [defs_eq]; exact Whole.frame (F := Bits) m ρ

theorem frame_kernelIdeal : Cert.frame_KernelIdeal (hKernelIdeal := Gen.facts) (hPre_finite_inputs := Cert.Pre_finite_inputs.Gen.facts) :=
  fun m ρ _ => Whole.frame m ρ

/-- The reference is host operations only: its run keeps the arguments. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- From memories agreeing on the ten arguments both programs end with the same three arrays. -/
theorem algebraic : Cert.algebraic_KernelIdeal_ReferenceIdeal (hKernelIdeal := Gen.facts) (hReferenceIdeal := Cert.ReferenceIdeal.Gen.facts) (hPre_finite_inputs := Cert.Pre_finite_inputs.Gen.facts) := by
  intro m ρ m' ρ' _ hagree
  refine ⟨fun c => Cert.Bridge.kernelTerm (m ((c.tc : Thread nD τ).loc main_arg0)) (m ((c.tc : Thread nD τ).loc main_arg1)) (m ((c.tc : Thread nD τ).loc main_arg2)) (m ((c.tc : Thread nD τ).loc main_arg3)),
    fun c => Cert.Bridge.kernelTerm (m ((c.tc : Thread nD τ).loc main_arg0)) (m ((c.tc : Thread nD τ).loc main_arg4)) (m ((c.tc : Thread nD τ).loc main_arg5)) (m ((c.tc : Thread nD τ).loc main_arg6)),
    fun c => Cert.Bridge.kernelTerm (m ((c.tc : Thread nD τ).loc main_arg0)) (m ((c.tc : Thread nD τ).loc main_arg7)) (m ((c.tc : Thread nD τ).loc main_arg8)) (m ((c.tc : Thread nD τ).loc main_arg9)), ?_, ?_⟩
  · exact (θ_run defs _ _).mono (fun _ h c =>
      ⟨((h c).1 _ (Whole.mem_uc main_v14 (by decide))).trans (Whole.result_Q m c),
       ((h c).1 _ (Whole.mem_uc main_v15 (by decide))).trans (Whole.result_K m c),
       ((h c).1 _ (Whole.mem_uc main_v16 (by decide))).trans (Whole.result_V m c), (h c).2⟩)
      (Whole.run_args m ρ)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' ρ')
    · rw [(hagree c).1, (hagree c).2.1, (hagree c).2.2.1, (hagree c).2.2.2.1]
      exact Cert.Bridge.reference_eq_kernel _ _ _ _
    · rw [(hagree c).1, (hagree c).2.2.2.2.1, (hagree c).2.2.2.2.2.1, (hagree c).2.2.2.2.2.2.1]
      exact Cert.Bridge.reference_eq_kernel _ _ _ _
    · rw [(hagree c).1, (hagree c).2.2.2.2.2.2.2.1, (hagree c).2.2.2.2.2.2.2.2.1, (hagree c).2.2.2.2.2.2.2.2.2]
      exact Cert.Bridge.reference_eq_kernel _ _ _ _

theorem claim : Cert.Claim :=
  ⟨Cert.Kernel.Gen.facts, Gen.facts, Cert.ReferenceIdeal.Gen.facts, Cert.Pre_finite_inputs.Gen.facts,
    frame_kernel, frame_kernelIdeal, frame_reference, trivial, algebraic⟩

end Cert.Proof

end
